-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  let main_c_2 : IVec S_ 32 := constantI S_ 32 100#32
  let main_v8 : IVec S4096 32 := broadcastInDim S4096 ![] bcast_S_S4096 main_c_2
  let main_v9 : IVec S4096 1 := cmpi .slt main_arg1 main_v8
  let main_c_3 : IVec S_ 1 := constantI S_ 1 1#1
  let main_v10 : IVec S_ 1 := (fun x v => Host.reduce IntOp.andi x v reducesTo_S4096_S_d0 h_S_) main_v9 main_c_3
  let main_v11 : IVec S_ 1 := andi main_v7 main_v10
  main_v11
-- ==== Kernel.lean ====
abbrev S4096x512 : Shape := ⟨2, ![4096, 512]⟩
abbrev S4096 : Shape := ⟨1, ![4096]⟩
abbrev S8192 : Shape := ⟨1, ![8192]⟩
abbrev S_ : Shape := ⟨0, ![]⟩
abbrev S100 : Shape := ⟨1, ![100]⟩
abbrev S8192x1 : Shape := ⟨2, ![8192, 1]⟩
abbrev S4096x256 : Shape := ⟨2, ![4096, 256]⟩
abbrev S8192x256 : Shape := ⟨2, ![8192, 256]⟩
abbrev S1x8192 : Shape := ⟨2, ![1, 8192]⟩
abbrev S512x256 : Shape := ⟨2, ![512, 256]⟩
abbrev S512x1 : Shape := ⟨2, ![512, 1]⟩
abbrev S1x2048 : Shape := ⟨2, ![1, 2048]⟩
abbrev S2048x256 : Shape := ⟨2, ![2048, 256]⟩
abbrev S256x2048 : Shape := ⟨2, ![256, 2048]⟩
abbrev S512x2048 : Shape := ⟨2, ![512, 2048]⟩
abbrev S512 : Shape := ⟨1, ![512]⟩

abbrev nBuf : Space → Nat
  | .hbm => 62
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S8192, .i32⟩
  | .hbm, ⟨3, _⟩ => ⟨S_, .f32⟩
  | .hbm, ⟨4, _⟩ => ⟨S100, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S_, .f32⟩
  | .hbm, ⟨14, _⟩ => ⟨S8192, .f32⟩
  | .hbm, ⟨15, _⟩ => ⟨S100, .f32⟩
  | .hbm, ⟨16, _⟩ => ⟨S_, .f32⟩
  | .hbm, ⟨17, _⟩ => ⟨S100, .f32⟩
  | .hbm, ⟨18, _⟩ => ⟨S100, .i1⟩
  | .hbm, ⟨19, _⟩ => ⟨S_, .f32⟩
  | .hbm, ⟨20, _⟩ => ⟨S100, .f32⟩
  | .hbm, ⟨21, _⟩ => ⟨S100, .f32⟩
  | .hbm, ⟨22, _⟩ => ⟨S_, .f32⟩
  | .hbm, ⟨23, _⟩ => ⟨S_, .f32⟩
  | .hbm, ⟨24, _⟩ => ⟨S100, .f32⟩
  | .hbm, ⟨25, _⟩ => ⟨S100, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S4096x256, .f32⟩
  | .hbm, ⟨48, _⟩ => ⟨S4096x256, .f32⟩
  | .hbm, ⟨49, _⟩ => ⟨S8192x256, .f32⟩
  | .hbm, ⟨50, _⟩ => ⟨S8192x256, .bf16⟩
  | .hbm, ⟨51, _⟩ => ⟨S8192x1, .i32⟩
  | .hbm, ⟨52, _⟩ => ⟨S1x8192, .i32⟩
  | .hbm, ⟨53, _⟩ => ⟨S1x8192, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S512x1, .i32⟩
  | .local _ .vmem, ⟨4, _⟩ => ⟨S512x1, .i32⟩
  | .local _ .vmem, ⟨5, _⟩ => ⟨S1x2048, .i32⟩
  | .local _ .vmem, ⟨6, _⟩ => ⟨S1x2048, .i32⟩
  | .local _ .vmem, ⟨7, _⟩ => ⟨S1x2048, .f32⟩
  | .local _ .vmem, ⟨8, _⟩ => ⟨S1x2048, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_7 : Ref sig .tc := ⟨.hbm, 35, rfl⟩
abbrev main_v22 : Ref sig .tc := ⟨.hbm, 36, rfl⟩
abbrev main_v23 : Ref sig .tc := ⟨.hbm, 37, rfl⟩
abbrev main_c_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v70 : BitVec 1 := Scalar.cmpi .eq arg1 c3_i32
  let v71 : BitVec 32 := Scalar.extui v70
  let c0_i32_30 : BitVec 32 := 0#32
  let v72 : BitVec 1 := Scalar.cmpi .ne v71 c0_i32_30
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  concatenates_S4096_S4096_S8192_d0 : Shape.Concatenates [S4096, S4096] S8192 0
  bcast_S_S100 : S_.BroadcastsInDim S100 (![] : Fin 0 → Fin S100.rank)
  bcast_S_S8192 : S_.BroadcastsInDim S8192 (![] : Fin 0 → Fin S8192.rank)
  bcast_S8192_S8192x1_0 : S8192.BroadcastsInDim S8192x1 (![0] : Fin 1 → Fin S8192x1.rank)
  slices_S4096x512_S4096x256_0_0 : S4096x512.Slices ![0, 0] S4096x256
  slices_S4096x512_S4096x256_0_256 : S4096x512.Slices ![0, 256] S4096x256
  concatenates_S4096x256_S4096x256_S8192x256_d0 : Shape.Concatenates [S4096x256, S4096x256] S8192x256 0
  bitsLt_bf16_f32 : FTy.bits .bf16 < FTy.bits .f32
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  h_S2048x256 : 0 < S2048x256.numel
  shapeCasts_S2048x256_S2048x256 : S2048x256.ShapeCasts S2048x256
  transposes_S2048x256_p1_0_S256x2048 : S2048x256.Transposes [1, 0] S256x2048
  iota_S512x2048_d0_w32 : S512x2048.Iotas .tc 32 [0]
  iota_S512x2048_d1_w32 : S512x2048.Iotas .tc 32 [1]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  natLt_1_32 : 1 < 32
  reduces_S512x2048_S512 : S512x2048.Reduces [1] S512
  shapeCasts_S512_S512x1 : S512.ShapeCasts S512x1
  reducesTo_S8192x1_S_d0_1 : S8192x1.ReducesTo [0, 1] S_
  h_S_ : 0 < S_.numel
  reducesTo_S8192_S_d0 : S8192.ReducesTo [0] S_
  scatter_S100_S8192x1_S8192_n_0_0_1_wf : ScatterDims.WF S100 S8192x1 S8192 [] [0] [0] 1
  gather_S100_S8192x1_S8192_n_0_n_n_0_1_1_wf : GatherDims.WF S100 S8192x1 S8192 [] [0] [] [0] [] 1 ![1]
  dot_S512x256_S256x2048_S512x2048_1_0_0_1_n_n_wf : DotDims.WF S512x256 S256x2048 S512x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .bf16 = 32 ∨ (Rect.block (s := S8192x256) S512x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S8192x1.size a
  hwx0_6 : ∀ i : grid0.Coords, EltTy.bits .f32 = 32 ∨ (Rect.block (s := S8192x1) S512x1.size (cc0_transform_6 i) (hinb0_6 i)).WholeWords (EltTy.packing .f32)

variable [Facts₀]

def scatter_S100_S8192x1_S8192_n_0_0_1 : ScatterDims S100 S8192x1 S8192 where
  updateWindowDims := []
  insertedWindowDims := [0]
  scatterDimsToOperandDims := [0]
  indexVectorDim := 1
  wf := scatter_S100_S8192x1_S8192_n_0_0_1_wf
def gather_S100_S8192x1_S8192_n_0_n_n_0_1_1 : GatherDims S100 S8192x1 S8192 where
  offsetDims := []
  collapsedSliceDims := [0]
  operandBatchingDims := []
  startIndicesBatchingDims := []
  startIndexMap := [0]
  indexVectorDim := 1
  sliceSizes := ![1]
  wf := gather_S100_S8192x1_S8192_n_0_n_n_0_1_1_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v34) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S8192 : Shape := ⟨1, ![8192]⟩
abbrev S_ : Shape := ⟨0, ![]⟩
abbrev S100 : Shape := ⟨1, ![100]⟩
abbrev S8192x1 : Shape := ⟨2, ![8192, 1]⟩
abbrev S1x8192 : Shape := ⟨2, ![1, 8192]⟩
abbrev S8192x8192 : Shape := ⟨2, ![8192, 8192]⟩
abbrev S4096x256 : Shape := ⟨2, ![4096, 256]⟩
abbrev S8192x256 : Shape := ⟨2, ![8192, 256]⟩
abbrev S256x8192 : Shape := ⟨2, ![256, 8192]⟩

abbrev nBuf : Space → Nat
  | .hbm => 73
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S8192, .i32⟩
  | .hbm, ⟨3, _⟩ => ⟨S_, .f32⟩
  | .hbm, ⟨4, _⟩ => ⟨S100, .f32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S_, .f32⟩
  | .hbm, ⟨14, _⟩ => ⟨S8192, .f32⟩
  | .hbm, ⟨15, _⟩ => ⟨S100, .f32⟩
  | .hbm, ⟨16, _⟩ => ⟨S8192x1, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S4096x256, .f32⟩
  | .hbm, ⟨34, _⟩ => ⟨S4096x256, .f32⟩
  | .hbm, ⟨35, _⟩ => ⟨S8192x256, .f32⟩
  | .hbm, ⟨36, _⟩ => ⟨S256x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .i32⟩
  | .hbm, ⟨49, _⟩ => ⟨S8192, .i32⟩
  | .hbm, ⟨50, _⟩ => ⟨S8192, .i1⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .i32⟩
  | .hbm, ⟨55, _⟩ => ⟨S8192x1, .i32⟩
  | .hbm, ⟨56, _⟩ => ⟨S8192, .f32⟩
  | .hbm, ⟨57, _⟩ => ⟨S1x8192, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_6 : Ref sig .tc := ⟨.hbm, 48, rfl⟩
abbrev main_v38 : Ref sig .tc := ⟨.hbm, 49, rfl⟩
abbrev main_v39 : Ref sig .tc := ⟨.hbm, 50, rfl⟩
abbrev main_c_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]

class Facts₀ : Prop where
  concatenates_S4096_S4096_S8192_d0 : Shape.Concatenates [S4096, S4096] S8192 0
  bcast_S_S100 : S_.BroadcastsInDim S100 (![] : Fin 0 → Fin S100.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  slices_S4096x512_S4096x256_0_0 : S4096x512.Slices ![0, 0] S4096x256
  slices_S4096x512_S4096x256_0_256 : S4096x512.Slices ![0, 256] S4096x256
  concatenates_S4096x256_S4096x256_S8192x256_d0 : Shape.Concatenates [S4096x256, S4096x256] S8192x256 0
  transposes_S8192x256_S256x8192_1_0 : S8192x256.Transposes [1, 0] S256x8192
  reducesTo_S8192x8192_S8192_d1 : S8192x8192.ReducesTo [1] S8192
  h_S_ : 0 < S_.numel
  reducesTo_S8192x8192_S_d0_1 : S8192x8192.ReducesTo [0, 1] S_
  scatter_S100_S8192x1_S8192_n_0_0_1_wf : ScatterDims.WF S100 S8192x1 S8192 [] [0] [0] 1
  dot_S8192x256_S256x8192_S8192x8192_1_0_0_1_n_n_wf : DotDims.WF S8192x256 S256x8192 S8192x8192 [1] [0] [0] [1] [] []
  gather_S100_S8192x1_S8192_n_0_n_n_0_1_1_wf : GatherDims.WF S100 S8192x1 S8192 [] [0] [] [0] [] 1 ![1]

variable [Facts₀]

def scatter_S100_S8192x1_S8192_n_0_0_1 : ScatterDims S100 S8192x1 S8192 where
  updateWindowDims := []
  insertedWindowDims := [0]
  scatterDimsToOperandDims := [0]
  indexVectorDim := 1
  wf := scatter_S100_S8192x1_S8192_n_0_0_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S100_S8192x1_S8192_n_0_n_n_0_1_1 : GatherDims S100 S8192x1 S8192 where
  offsetDims := []
  collapsedSliceDims := [0]
  operandBatchingDims := []
  startIndicesBatchingDims := []
  startIndexMap := [0]
  indexVectorDim := 1
  sliceSizes := ![1]
  wf := gather_S100_S8192x1_S8192_n_0_n_n_0_1_1_wf

class Facts : Prop extends Facts₀ where

variable [Facts]
-- ==== Proof.K.Entry.lean ====
import proofs.«416192_j3616362463447_2_alg».proof.Proof.Gen.Kernel.Launch
import proofs.«416192_j3616362463447_2_alg».proof.Proof.Gen.Kernel.Skeleton
import proofs.«416192_j3616362463447_2_alg».proof.Proof.Gen.Kernel.Points
import Idealize.ShloMosaic.Lib.Pipeline.FrameBody
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

abbrev V0 (c : Dev nD) : Valuation τ sig (Elt F) :=
  StableHlo.after (List.flatten [hostOps0, hostOps0_1, hostOps0_2]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Hand

end
-- ==== Proof.K.Launch.lean ====
import proofs.«416192_j3616362463447_2_alg».proof.Proof.K.Entry
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

theorem arrs_eq : Finset.univ.image (Pipeline.arrRef spec0) = ([main_v34, main_v35, main_v36, main_v37, main_v38, main_v39] : List (Ref sig .tc)).toFinset := by
  decide

theorem arrBufs_eq (c : Dev nD) (Wv : (b : Ref sig .tc) → Buf (Elt F) ((c : Thread nD τ).loc b)) :
    (Pipeline.arrBufs spec0 c Wv : sProp 𝕄)
      = iprop((((c : Thread nD τ).loc main_v34) ↦{fullShare} Wv main_v34) ∗ (((c : Thread nD τ).loc main_v35) ↦{fullShare} Wv main_v35)
          ∗ (((c : Thread nD τ).loc main_v36) ↦{fullShare} Wv main_v36) ∗ (((c : Thread nD τ).loc main_v37) ↦{fullShare} Wv main_v37)
          ∗ (((c : Thread nD τ).loc main_v38) ↦{fullShare} Wv main_v38) ∗ (((c : Thread nD τ).loc main_v39) ↦{fullShare} Wv main_v39)) :=
  bigSep_eq_bigSepL_of_eq ([main_v34, main_v35, main_v36, main_v37, main_v38, main_v39] : List (Ref sig .tc)) arrs_eq (by decide)
    (fun b => (((c : Thread nD τ).loc b) ↦{fullShare} Wv b : sProp 𝕄))

section Arrays

variable {c : Dev nD} (dat : Dat τ (Elt F) Unit ℕ (UR sig nD τ) ℕ cfg0 c)

theorem arrays_refs (Fw : (w : Fin cfg0.W) → Buf (Elt F) ((cfg0.win w).arr.view.loc (c.tc : Thread nD τ))) :
    (dat.arrays Fw : sProp 𝕄)
      = bigSep Finset.univ fun w : Fin 7 => (((c.tc : Thread nD τ).loc (Pipeline.arrRef spec0 w)) ↦{dat.share w} Fw w : sProp 𝕄) := by
  unfold Pipeline.Dat.arrays
  exact bigSep_congr fun w _ => by rw [(arr_whole0 w).set_eq_univ]

variable (hs0 : dat.share 0 = fullShare.left) (hs1 : dat.share 1 = fullShare.right)
  (hs2 : dat.share 2 = fullShare) (hs3 : dat.share 3 = fullShare) (hs4 : dat.share 4 = fullShare)
  (hs5 : dat.share 5 = fullShare) (hs6 : dat.share 6 = fullShare)

include hs0 hs1 hs2 hs3 hs4 hs5 hs6 in
theorem arrays_of_bufs (Wv : (b : Ref sig .tc) → Buf (Elt F) ((c : Thread nD τ).loc b)) :
    (Pipeline.arrBufs spec0 c Wv : sProp 𝕄) ⊢ dat.arrays (fun w => Wv (Pipeline.arrRef spec0 w)) := by
  rw [arrays_refs, bigSep_W0]
  rw [arrBufs_eq, hs0, hs1, hs2, hs3, hs4, hs5, hs6]
  iintro ⟨H34, H35, H36, H37, H38, H39⟩
  ihave H := (pointsTo_share (PosShare.mem_left_op_right fullShare)).1 $$ H34
  icases H with ⟨Hl, Hr⟩
  isplitl [Hl]; · iexact Hl
  isplitl [Hr]; · iexact Hr
  isplitl [H35]; · iexact H35
  isplitl [H36]; · iexact H36
  isplitl [H37]; · iexact H37
  isplitl [H38]; · iexact H38
  iexact H39

include hs0 hs1 hs2 hs3 hs4 hs5 hs6 in
theorem bufs_of_arrays (Wv : (b : Ref sig .tc) → Buf (Elt F) ((c : Thread nD τ).loc b)) :
    (dat.arrays (fun w => Wv (Pipeline.arrRef spec0 w)) : sProp 𝕄) ⊢ Pipeline.arrBufs spec0 c Wv := by
  rw [arrays_refs, bigSep_W0]
  rw [arrBufs_eq, hs0, hs1, hs2, hs3, hs4, hs5, hs6]
  iintro ⟨Hl, Hr, H35, H36, H37, H38, H39⟩
  isplitl [Hl Hr]
  · iapply (pointsTo_share (PosShare.mem_left_op_right fullShare)).2
    isplitl [Hl]; · iexact Hl
    iexact Hr
  isplitl [H35]; · iexact H35
  isplitl [H36]; · iexact H36
  isplitl [H37]; · iexact H37
  isplitl [H38]; · iexact H38
  iexact H39

end Arrays

section Exit

variable (dats : (p : Fin 1) → (c : Dev nD) → Dat τ (Elt F) Unit ℕ (UR sig nD τ) ℕ (cfgs p) c)

def Wexit (c : Dev nD) : Valuation τ sig (Elt F) :=
  Function.update (V0 m c) (Proc.devRef .tc main_v39) ((dats 0 c).arrAt 6 cfg0.N)

abbrev Wfin (c : Dev nD) : Valuation τ sig (Elt F) := StableHlo.after hostOps1 (Wexit m dats c)

theorem Wexit_out (c : Dev nD) : Wexit m dats c (Proc.devRef .tc main_v39) = (dats 0 c).arrAt 6 cfg0.N := by
  unfold Wexit; exact Function.update_self _ _ _

theorem Wexit_of_ne (c : Dev nD) (r : Ref sig .tc) (h : r ≠ main_v39) : Wexit m dats c (Proc.devRef .tc r) = V m c r := by
  unfold Wexit
  exact Function.update_of_ne (StableHlo.devRef_ne_of_ne h : (Proc.devRef .tc r : DevRef τ sig) ≠ Proc.devRef .tc main_v39) _ _

abbrev hostOps1_W : List (Ref sig .tc) := [main_cst_10, main_v40, main_v41, main_cst_11, main_v42, main_v43]

theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem after1_of (W : Valuation τ sig (Elt F)) (r : Ref sig .tc) (h : r ∉ (hostOps1_W : List (Ref sig .tc))) :
    StableHlo.after hostOps1 W (Proc.devRef .tc r) = W (Proc.devRef .tc r) :=
  StableHlo.after_of_writes_sub hostOps1 W hostOps1_writes h

variable (hA : ∀ c w, (dats 0 c).A w = V m c (Pipeline.arrRef spec0 w))

include hA in
theorem arrAt_exit (c : Dev nD) : ∀ w : Fin 7, (dats 0 c).arrAt w cfg0.N = Wexit m dats c (Proc.devRef .tc (Pipeline.arrRef spec0 w))
  | 0 => ((dats 0 c).arrAt_in 0 rfl _).trans ((hA c 0).trans (Wexit_of_ne m dats c _ (by decide)).symm)
  | 1 => ((dats 0 c).arrAt_in 1 rfl _).trans ((hA c 1).trans (Wexit_of_ne m dats c _ (by decide)).symm)
  | 2 => ((dats 0 c).arrAt_in 2 rfl _).trans ((hA c 2).trans (Wexit_of_ne m dats c _ (by decide)).symm)
  | 3 => ((dats 0 c).arrAt_in 3 rfl _).trans ((hA c 3).trans (Wexit_of_ne m dats c _ (by decide)).symm)
  | 4 => ((dats 0 c).arrAt_in 4 rfl _).trans ((hA c 4).trans (Wexit_of_ne m dats c _ (by decide)).symm)
  | 5 => ((dats 0 c).arrAt_in 5 rfl _).trans ((hA c 5).trans (Wexit_of_ne m dats c _ (by decide)).symm)
  | 6 => (Wexit_out m dats c).symm
  | ⟨_ + 7, h⟩ => absurd h (Nat.not_lt.2 (Nat.le_add_left _ _))

theorem Wfin_arr (c : Dev nD) : ∀ w : Fin 7, Wfin m dats c (Proc.devRef .tc (Pipeline.arrRef spec0 w)) = Wexit m dats c (Proc.devRef .tc (Pipeline.arrRef spec0 w))
  | 0 => after1_of _ _ (by decide) | 1 => after1_of _ _ (by decide) | 2 => after1_of _ _ (by decide) | 3 => after1_of _ _ (by decide)
  | 4 => after1_of _ _ (by decide) | 5 => after1_of _ _ (by decide) | 6 => after1_of _ _ (by decide)
  | ⟨_ + 7, h⟩ => absurd h (Nat.not_lt.2 (Nat.le_add_left _ _))

end Exit

theorem V_of_unwritten (c : Dev nD) (r : Ref sig .tc)
    (h : ∀ op ∈ (List.flatten [hostOps0, hostOps0_1, hostOps0_2] : List (HloOp τ sig (Elt F))), (Proc.devRef .tc r : DevRef τ sig) ∉ op.writes) :
    V m c r = m ((c : Thread nD τ).loc r) :=
  StableHlo.after_of_forall_not_mem (b := Proc.devRef .tc r) _ _ h

theorem V_main_arg (c : Dev nD) (r : Ref sig .tc) (hr : r = main_arg0 ∨ r = main_arg1) : V m c r = m ((c : Thread nD τ).loc r) := by
  rcases hr with rfl | rfl <;>
  exact V_of_unwritten m c _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

section Run

variable (dats : (p : Fin 1) → (c : Dev nD) → Dat τ (Elt F) Unit ℕ (UR sig nD τ) ℕ (cfgs p) c)
  (hA : ∀ c w, (dats 0 c).A w = V m c (Pipeline.arrRef spec0 w))
  (hs0 : ∀ c, (dats 0 c).share 0 = fullShare.left) (hs1 : ∀ c, (dats 0 c).share 1 = fullShare.right)
  (hs2 : ∀ c, (dats 0 c).share 2 = fullShare) (hs3 : ∀ c, (dats 0 c).share 3 = fullShare) (hs4 : ∀ c, (dats 0 c).share 4 = fullShare)
  (hs5 : ∀ c, (dats 0 c).share 5 = fullShare) (hs6 : ∀ c, (dats 0 c).share 6 = fullShare)

theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.PerCore.unscopedBufs_split₀ (fun _ => cfgs) (0 : Fin 1) c winFacts₀0.arr_unscoped _

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

include hA hs0 hs1 hs2 hs3 hs4 hs5 hs6 in
set_option backward.isDefEq.respectTransparency.types false in
theorem tail (c : Dev nD) (Q' : PUnit → sProp 𝕄) :
    iprop((iprop((dats 0 c).arrays ((dats 0 c).arrAt · cfg0.N) ∗ Pipeline.unscopedRest spec0 c (fun b => Wfin m dats c (Proc.devRef .tc b))) -∗ Q' ⟨⟩)
        ∗ boundary (c.tc : Thread nD τ) ∗ (dats 0 c).arrays ((dats 0 c).arrAt · cfg0.N) ∗ Pipeline.unscopedRest spec0 c (V m c))
      ⊢ wp frame (wpE (defs (F := F)) (Variants.lift Variants.none) (c.tc : Thread nD τ) none) Set.univ (Pipeline.chain [StableHlo.seq hostOps1]) Q' := by
  classical
  have harr : ((dats 0 c).arrAt · cfg0.N) = fun w => (fun b : Ref sig .tc => Wexit m dats c (Proc.devRef .tc b)) (Pipeline.arrRef spec0 w) :=
    funext (arrAt_exit m dats hA c)
  have harr' : (fun w => (fun b : Ref sig .tc => Wfin m dats c (Proc.devRef .tc b)) (Pipeline.arrRef spec0 w))
      = fun w => (fun b : Ref sig .tc => Wexit m dats c (Proc.devRef .tc b)) (Pipeline.arrRef spec0 w) :=
    funext (Wfin_arr m dats c)
  have hrest : (Pipeline.unscopedRest spec0 c (V m c) : sProp 𝕄) = Pipeline.unscopedRest spec0 c (fun b => Wexit m dats c (Proc.devRef .tc b)) := by
    unfold Pipeline.unscopedRest
    exact bigSep_congr fun b hb => by
      dsimp only
      rw [Wexit_of_ne m dats c b fun e => (Finset.mem_sdiff.mp hb).2 (Finset.mem_image.mpr ⟨6, Finset.mem_univ _, e.symm⟩)]
  rw [harr, hrest]
  show _ ⊢ wp frame (wpE (defs (F := F)) (Variants.lift Variants.none) (c.tc : Thread nD τ) none) Set.univ
    (Pipeline.chain (([hostOps1] : List (List (HloOp τ sig (Elt F)))).map StableHlo.seq ++ [])) Q'
  iintro ⟨Hk, Hb, Ha, Hr⟩
  ihave Hbufs := (bufs_of_arrays (dats 0 c) (hs0 c) (hs1 c) (hs2 c) (hs3 c) (hs4 c) (hs5 c) (hs6 c) (fun b => Wexit m dats c (Proc.devRef .tc b))) $$ Ha
  ihave Hheld := (Entails.of_eq (held_split c (Wexit m dats c)).symm) $$ [Hbufs Hr]
  · isplitl [Hbufs] <;> iassumption
  iapply (Pipeline.wp_seqs_then (fun q => Cfg.toPCfg (Val := Elt F) (cfgs q)) defs₀ Variants.none c (Pipeline.ucRefs τ sig) [] [hostOps1] tail_sub tail_fresh (Wexit m dats c)) $$ [Hb Hheld]
  · isplitl [Hb] <;> iassumption
  iintro ⟨Hb, Hheld⟩
  rw [Pipeline.chain_nil, wp_pure,
    show StableHlo.after ([hostOps1] : List (List (HloOp τ sig (Elt F)))).flatten (Wexit m dats c) = Wfin m dats c from by
      simp only [List.flatten_cons, List.flatten_nil, List.append_nil]]
  have hback : (Pipeline.arrBufs spec0 c (fun b => Wfin m dats c (Proc.devRef .tc b)) : sProp 𝕄)
      ⊢ (dats 0 c).arrays (fun w => (fun b : Ref sig .tc => Wexit m dats c (Proc.devRef .tc b)) (Pipeline.arrRef spec0 w)) :=
    (arrays_of_bufs (dats 0 c) (hs0 c) (hs1 c) (hs2 c) (hs3 c) (hs4 c) (hs5 c) (hs6 c) (fun b => Wfin m dats c (Proc.devRef .tc b))).trans
      (Entails.of_eq (congrArg (fun Fw => ((dats 0 c).arrays Fw : sProp 𝕄)) harr'))
  imodintro
  iapply Hk
  ihave H := (Entails.of_eq (held_split c (Wfin m dats c))) $$ Hheld
  icases H with ⟨Hbufs, Hr⟩
  isplitl [Hbufs]
  · iapply hback; iexact Hbufs
  iexact Hr

include hA hs0 hs1 hs2 hs3 hs4 hs5 hs6 in
set_option maxHeartbeats 4000000 in
set_option backward.isDefEq.respectTransparency.types false in
theorem run_main
    (hbody : ∀ c, BodyObligation (dats 0 c) (defs₀ (F := F)) Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v43) = Wfin m dats c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => Cfg.toPCfg (Val := Elt F) (cfgs q)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_of_bufs (dats 0 c) (hs0 c) (hs1 c) (hs2 c) (hs3 c) (hs4 c) (hs5 c) (hs6 c) (V m c)).trans
      (Entails.of_eq (congrArg (fun Fw => ((dats 0 c).arrays Fw : sProp 𝕄)) (funext fun w => (hA c w).symm))))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail m dats hA hs0 hs1 hs2 hs3 hs4 hs5 hs6 c Q')
    (QY := fun c s => ∀ b ∈ Pipeline.restRefs sig spec0, s.mem ((c.tc : Thread nD τ).loc b) = Wfin m dats c (Proc.devRef .tc b))
    (hY := fun c s' => by
      rw [Pipeline.unscopedRestP_none]; unfold Pipeline.unscopedRest
      iintro ⟨-, HU, HSI⟩
      imodintro
      iapply (pointsTo_read_all (Pipeline.restRefs sig spec0) (fun b => (c.tc : Thread nD τ).loc b) (fun b => Wfin m dats c (Proc.devRef .tc b)) s')
      isplitl [HU] <;> iassumption)
    (hQ := fun s h c =>
      ⟨(h c).2.2 main_v43 (Pipeline.mem_restRefs_of main_v43 (by decide) (by decide)),
       ((h c).2.2 main_arg0 (Pipeline.mem_restRefs_of main_arg0 (by decide) (by decide))).trans
         ((after1_of _ _ (by decide)).trans ((Wexit_of_ne m dats c main_arg0 (by decide)).trans (V_main_arg m c _ (.inl rfl)))),
       ((h c).2.2 main_arg1 (Pipeline.mem_restRefs_of main_arg1 (by decide) (by decide))).trans
         ((after1_of _ _ (by decide)).trans ((Wexit_of_ne m dats c main_arg1 (by decide)).trans (V_main_arg m c _ (.inr rfl))))⟩)

end Run

end Cert.Kernel.Hand

end
-- ==== Proof.K.Runs.lean ====
import proofs.«416192_j3616362463447_2_alg».proof.Proof.K.Entry
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem liveAt0_5 : ∀ t : Fin cfg0.N, cfg0.idle 5 (grid0.coords t) = false := by decide +kernel

theorem idleAt0_6_A : ∀ t : Fin cfg0.N, cond0_0 (grid0.coords t) → ¬cond0_1 (grid0.coords t) → cfg0.idle 6 (grid0.coords t) = true := by decide +kernel

theorem noFlush0_6_A : ∀ t : Fin cfg0.N, cond0_0 (grid0.coords t) → ¬cond0_1 (grid0.coords t) → (cfg0.win 6).flush t = false := by decide +kernel

theorem idleAt0_6_B : ∀ t : Fin cfg0.N, ¬cond0_0 (grid0.coords t) → ¬cond0_1 (grid0.coords t) → cfg0.idle 6 (grid0.coords t) = true := by decide +kernel

theorem noFlush0_6_B : ∀ t : Fin cfg0.N, ¬cond0_0 (grid0.coords t) → ¬cond0_1 (grid0.coords t) → (cfg0.win 6).flush t = false := by decide +kernel

theorem liveAt0_6_C : ∀ t : Fin cfg0.N, ¬cond0_0 (grid0.coords t) → cond0_1 (grid0.coords t) → cfg0.idle 6 (grid0.coords t) = false := by decide +kernel

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.K.RunA.lean ====
import proofs.«416192_j3616362463447_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .bf16) (x1 : Vec F S8192x256 .bf16) (x2 : Vec F S512x1 .i32) (x3 : Vec F S1x2048 .i32) (x4 : Vec F S1x2048 .f32) (x5 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.RunB.lean ====
import proofs.«416192_j3616362463447_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_B (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .bf16) (x1 : Vec F S8192x256 .bf16) (x2 : Vec F S512x1 .i32) (x3 : Vec F S1x2048 .i32) (x4 : Vec F S1x2048 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.Hand

end
-- ==== Proof.K.RunC.lean ====
import proofs.«416192_j3616362463447_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_C (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .bf16) (x1 : Vec F S8192x256 .bf16) (x2 : Vec F S512x1 .i32) (x3 : Vec F S1x2048 .i32) (x4 : Vec F S1x2048 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__balscl_kernel_eq_skeleton]; unfold cc0__balscl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.Kernel.Hand

end
-- ==== Proof.LibOwns.lean ====
import Idealize.ShloMosaic.Lib.Memref
import Idealize.ShloMosaic.Lib.Ring
import Idealize.ShloMosaic.Lib.Pipeline.FrameBody

namespace Idealize.ShloMosaic

open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {c : Thread nD τ} {cs : Space} {s : Shape} {e : EltTy} {q : PosShare TreeShare}

/-- A buffer whose stores read back as `X` over whatever it held is owned at `X`. -/
theorem owns_of_writes {M : Memref sig c.2.kind cs s e} {L : List (View.Piece Val s e)} {X : s.Idx → Val e}
    (h : ∀ f, M.view.read Val (M.view.writes Val f L) = X) :
    (iprop(∃ f, M.view.loc c ↦[M.view.set]{q} M.view.writes Val f L) : sProp 𝕄) ⊢ owns c M q X := by
  iintro ⟨%f, H⟩; unfold owns; iexists _; isplitr
  · ipureintro; exact h f
  · iexact H

/-- Pieces that tile the buffer overwrite all of it, so it ends owned at their overlay. -/
theorem owns_canon [∀ e, Nonempty (Val e)] {M : Memref sig c.2.kind cs s e} (L : List (View.Piece Val s e)) (size : Fin s.rank → ℕ)
    (h : View.Piece.tiledL L size = true) :
    (iprop(∃ f, M.view.loc c ↦[M.view.set]{q} M.view.writes Val f L) : sProp 𝕄) ⊢ owns c M q (View.canon L) :=
  owns_of_writes fun f => View.read_writes_eq_canon _ f L (View.cover_of_tiledL L size h)

end Idealize.ShloMosaic
-- ==== Proof.K.Body.lean ====
import proofs.«416192_j3616362463447_2_alg».proof.Proof.K.RunC
import proofs.«416192_j3616362463447_2_alg».proof.Proof.LibOwns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What a run's four lists of stored pieces leave: the output block, then the running maximum, normalizer and masked sum. -/
abbrev leaves {P : List (View.Piece (Elt F) S512x1 .f32) → List (View.Piece (Elt F) S512x1 .f32) → List (View.Piece (Elt F) S512x1 .f32) → List (View.Piece (Elt F) S512x1 .f32) → Prop}
    (r : Σ' (L6 LS0 LS1 : List (View.Piece (Elt F) S512x1 .f32)), {LS2 : List (View.Piece (Elt F) S512x1 .f32) // P L6 LS0 LS1 LS2}) : Vec F S512x1 .f32 × Vec F S512x1 .f32 × Vec F S512x1 .f32 × Vec F S512x1 .f32 :=
  (View.canon r.1, View.canon r.2.1, View.canon r.2.2.1, View.canon r.2.2.2.1)

/-- The three runs at grid point `t`: on its staging buffers, the three scratches and its input blocks; `p` is what the point before left. -/
abbrev runA (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
abbrev runB (c : Dev nD) (t : Fin cfg0.N) (h0 : ¬t.val % 4 = 0) (h1 : ¬t.val % 4 = 3) (p : Vec F S512x1 .f32 × Vec F S512x1 .f32 × Vec F S512x1 .f32 × Vec F S512x1 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.1 p.2.2.1 p.2.2.2
abbrev runC (c : Dev nD) (t : Fin cfg0.N) (h0 : ¬t.val % 4 = 0) (h1 : t.val % 4 = 3) (p : Vec F S512x1 .f32 × Vec F S512x1 .f32 × Vec F S512x1 .f32 × Vec F S512x1 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.1 p.2.2.1 p.2.2.2

/-- What the output block and the three scratches hold after the body at position `n`: the point's case run over what position `n - 1` left. -/
def outsAt0 (c : Dev nD) : (n : ℕ) → n < cfg0.N → Vec F S512x1 .f32 × Vec F S512x1 .f32 × Vec F S512x1 .f32 × Vec F S512x1 .f32
  | 0, hn => leaves (runA m c ⟨0, hn⟩ (Nat.zero_mod _) (by show ¬0 % 4 = 3; decide))
  | n + 1, hn =>
    if h0 : (n + 1) % 4 = 0 then leaves (runA m c ⟨n + 1, hn⟩ h0 (by show ¬(n + 1) % 4 = 3; omega))
    else if h1 : (n + 1) % 4 = 3 then leaves (runC m c ⟨n + 1, hn⟩ h0 h1 (outsAt0 c n (Nat.lt_of_succ_lt hn)))
    else leaves (runB m c ⟨n + 1, hn⟩ h0 h1 (outsAt0 c n (Nat.lt_of_succ_lt hn)))

theorem outsAt0_A (c : Dev nD) (t : Fin cfg0.N) (h0 : t.val % 4 = 0) (h1 : ¬t.val % 4 = 3) :
    outsAt0 m c t.val t.isLt = leaves (runA m c t h0 h1) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = leaves (runB m c t h0 h1 (outsAt0 m c (t.val - 1) (Nat.lt_of_le_of_lt (Nat.sub_le _ _) t.isLt))) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = leaves (runC m c t h0 h1 (outsAt0 m c (t.val - 1) (Nat.lt_of_le_of_lt (Nat.sub_le _ _) t.isLt))) := by
  obtain ⟨n, hn⟩ := t
  cases n with
  | zero => exact absurd (Nat.zero_mod _) h0
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- At any position the invariant gives back the region's own: the scratches' named contents are forgotten. -/
theorem PhiS_any (c : Dev nD) (n : ℕ) (h : n ≤ cfg0.N) : PhiS m c n h ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  cases n with
  | zero =>
    show Pipeline.ΦA spec0 c ⊢ _
    rw [PhiA0_eq]
    try exact Entails.refl _
  | succ n =>
    rw [PhiS_succ]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The body at any point: its case's run, fed the inputs' blocks and the scratches as the invariant holds them, leaves the scratches (and at a last column block the output block) at the overlay of the pieces it stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3,
    show (dats m 0 c).leavesExact 4 t = owns (c : Thread nD τ) (ms0_4 t) fullShare ((dats m 0 c).after 4 t) from by
      unfold Dat.leavesExact; rw [liveAt0_4 t], after0_4,
    show (dats m 0 c).leavesExact 5 t = owns (c : Thread nD τ) (ms0_5 t) fullShare ((dats m 0 c).after 5 t) from by
      unfold Dat.leavesExact; rw [liveAt0_5 t], after0_5]
  by_cases h0 : t.val % 4 = 0
  · have h1 : ¬t.val % 4 = 3 := by omega
    rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h))), outsAt0_A m c t h0 h1]
    dsimp only [leaves]
    iintro ⟨HP, Ho, ⟨%d0, H0⟩, ⟨%d1, H1⟩, ⟨%d2, H2⟩, ⟨%d3, H3⟩, ⟨%d4, H4⟩, ⟨%d5, H5⟩, ⟨%d6, H6⟩⟩
    ihave HP := (PhiS_any m c t.val _) $$ HP
    icases HP with ⟨⟨HS0, HS1, HS2⟩, Hg⟩
    iapply ((runA m c t h0 h1).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iapply (owns_canon (runA m c t h0 h1).2.1 S512x1.size (by sl_kernel_rfl)); iexact HS0
        isplitl [HS1]; · iapply (owns_canon (runA m c t h0 h1).2.2.1 S512x1.size (by sl_kernel_rfl)); iexact HS1
        iapply (owns_canon (runA m c t h0 h1).2.2.2.1 S512x1.size (by sl_kernel_rfl)); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_pos m c _ _ (by omega)]
    by_cases h1 : t.val % 4 = 3
    · rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6, outsAt0_C m c t h0 h1]
      dsimp only [leaves]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iapply (owns_canon (runC m c t h0 h1 _).2.1 S512x1.size (by sl_kernel_rfl)); iexact HS0
          isplitl [HS1]; · iapply (owns_canon (runC m c t h0 h1 _).2.2.1 S512x1.size (by sl_kernel_rfl)); iexact HS1
          iapply (owns_canon (runC m c t h0 h1 _).2.2.2.1 S512x1.size (by sl_kernel_rfl)); iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (owns_canon (runC m c t h0 h1 _).1 S512x1.size (by sl_kernel_rfl)); iexact H6
    · rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h))), outsAt0_B m c t h0 h1]
      dsimp only [leaves]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iapply (owns_canon (runB m c t h0 h1 _).2.1 S512x1.size (by sl_kernel_rfl)); iexact HS0
          isplitl [HS1]; · iapply (owns_canon (runB m c t h0 h1 _).2.2.1 S512x1.size (by sl_kernel_rfl)); iexact HS1
          iapply (owns_canon (runB m c t h0 h1 _).2.2.2.1 S512x1.size (by sl_kernel_rfl)); iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [PhiA0_eq]
  show PhiS m c (Fin.last cfg0.N).val _ ⊢ _
  exact PhiS_any m c _ _

end Cert.Kernel.Hand

end
-- ==== Proof.K.Run.lean ====
import proofs.«416192_j3616362463447_2_alg».proof.Proof.K.Launch
import proofs.«416192_j3616362463447_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

theorem run : θ_run defs (onTc (τ := τ) (main (F := F))) ⟨m, fun _ => 0, ρ⟩ (fun r => ∀ c : Dev nD,
      r.2.mem ((c.tc : Thread nD τ).loc main_v43) = Wfin m (dats m) c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (dats m) (A_eq m) (share_0 m) (share_1 m) (share_2 m) (share_3 m) (share_4 m) (share_5 m) (share_6 m)
    (body_obligation m) (fun _ _ => rfl) (hin m) (hout m)

end Cert.Kernel.Hand

end
-- ==== Proof.KI.Entry.lean ====
import proofs.«416192_j3616362463447_2_alg».proof.Proof.Gen.KernelIdeal.Launch
import proofs.«416192_j3616362463447_2_alg».proof.Proof.Gen.KernelIdeal.Skeleton
import proofs.«416192_j3616362463447_2_alg».proof.Proof.Gen.KernelIdeal.Points
import Idealize.ShloMosaic.Lib.Pipeline.FrameBody
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F] [Named F]

variable (m : (ℓ : Loc nD τ sig) → Buf (Elt F) ℓ)

abbrev V0 (c : Dev nD) : Valuation τ sig (Elt F) :=
  StableHlo.after (List.flatten [hostOps0, hostOps0_1, hostOps0_2]) (fun b => m (c, b))

abbrev V (c : Dev nD) (b : Ref sig .tc) : Buf (Elt F) ((c : Thread nD τ).loc b) := V0 m c (Proc.devRef .tc b)

def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Launch.lean ====
import proofs.«416192_j3616362463447_2_alg».proof.Proof.KI.Entry
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

theorem arrs_eq : Finset.univ.image (Pipeline.arrRef spec0) = ([main_v34, main_v35, main_v36, main_v37, main_v38, main_v39] : List (Ref sig .tc)).toFinset := by
  decide

theorem arrBufs_eq (c : Dev nD) (Wv : (b : Ref sig .tc) → Buf (Elt F) ((c : Thread nD τ).loc b)) :
    (Pipeline.arrBufs spec0 c Wv : sProp 𝕄)
      = iprop((((c : Thread nD τ).loc main_v34) ↦{fullShare} Wv main_v34) ∗ (((c : Thread nD τ).loc main_v35) ↦{fullShare} Wv main_v35)
          ∗ (((c : Thread nD τ).loc main_v36) ↦{fullShare} Wv main_v36) ∗ (((c : Thread nD τ).loc main_v37) ↦{fullShare} Wv main_v37)
          ∗ (((c : Thread nD τ).loc main_v38) ↦{fullShare} Wv main_v38) ∗ (((c : Thread nD τ).loc main_v39) ↦{fullShare} Wv main_v39)) :=
  bigSep_eq_bigSepL_of_eq ([main_v34, main_v35, main_v36, main_v37, main_v38, main_v39] : List (Ref sig .tc)) arrs_eq (by decide)
    (fun b => (((c : Thread nD τ).loc b) ↦{fullShare} Wv b : sProp 𝕄))

section Arrays

variable {c : Dev nD} (dat : Dat τ (Elt F) Unit ℕ (UR sig nD τ) ℕ cfg0 c)

theorem arrays_refs (Fw : (w : Fin cfg0.W) → Buf (Elt F) ((cfg0.win w).arr.view.loc (c.tc : Thread nD τ))) :
    (dat.arrays Fw : sProp 𝕄)
      = bigSep Finset.univ fun w : Fin 7 => (((c.tc : Thread nD τ).loc (Pipeline.arrRef spec0 w)) ↦{dat.share w} Fw w : sProp 𝕄) := by
  unfold Pipeline.Dat.arrays
  exact bigSep_congr fun w _ => by rw [(arr_whole0 w).set_eq_univ]

variable (hs0 : dat.share 0 = fullShare.left) (hs1 : dat.share 1 = fullShare.right)
  (hs2 : dat.share 2 = fullShare) (hs3 : dat.share 3 = fullShare) (hs4 : dat.share 4 = fullShare)
  (hs5 : dat.share 5 = fullShare) (hs6 : dat.share 6 = fullShare)

include hs0 hs1 hs2 hs3 hs4 hs5 hs6 in
theorem arrays_of_bufs (Wv : (b : Ref sig .tc) → Buf (Elt F) ((c : Thread nD τ).loc b)) :
    (Pipeline.arrBufs spec0 c Wv : sProp 𝕄) ⊢ dat.arrays (fun w => Wv (Pipeline.arrRef spec0 w)) := by
  rw [arrays_refs, bigSep_W0]
  rw [arrBufs_eq, hs0, hs1, hs2, hs3, hs4, hs5, hs6]
  iintro ⟨H34, H35, H36, H37, H38, H39⟩
  ihave H := (pointsTo_share (PosShare.mem_left_op_right fullShare)).1 $$ H34
  icases H with ⟨Hl, Hr⟩
  isplitl [Hl]; · iexact Hl
  isplitl [Hr]; · iexact Hr
  isplitl [H35]; · iexact H35
  isplitl [H36]; · iexact H36
  isplitl [H37]; · iexact H37
  isplitl [H38]; · iexact H38
  iexact H39

include hs0 hs1 hs2 hs3 hs4 hs5 hs6 in
theorem bufs_of_arrays (Wv : (b : Ref sig .tc) → Buf (Elt F) ((c : Thread nD τ).loc b)) :
    (dat.arrays (fun w => Wv (Pipeline.arrRef spec0 w)) : sProp 𝕄) ⊢ Pipeline.arrBufs spec0 c Wv := by
  rw [arrays_refs, bigSep_W0]
  rw [arrBufs_eq, hs0, hs1, hs2, hs3, hs4, hs5, hs6]
  iintro ⟨Hl, Hr, H35, H36, H37, H38, H39⟩
  isplitl [Hl Hr]
  · iapply (pointsTo_share (PosShare.mem_left_op_right fullShare)).2
    isplitl [Hl]; · iexact Hl
    iexact Hr
  isplitl [H35]; · iexact H35
  isplitl [H36]; · iexact H36
  isplitl [H37]; · iexact H37
  isplitl [H38]; · iexact H38
  iexact H39

end Arrays

section Exit

variable (dats : (p : Fin 1) → (c : Dev nD) → Dat τ (Elt F) Unit ℕ (UR sig nD τ) ℕ (cfgs p) c)

def Wexit (c : Dev nD) : Valuation τ sig (Elt F) :=
  Function.update (V0 m c) (Proc.devRef .tc main_v39) ((dats 0 c).arrAt 6 cfg0.N)

abbrev Wfin (c : Dev nD) : Valuation τ sig (Elt F) := StableHlo.after hostOps1 (Wexit m dats c)

theorem Wexit_out (c : Dev nD) : Wexit m dats c (Proc.devRef .tc main_v39) = (dats 0 c).arrAt 6 cfg0.N := by
  unfold Wexit; exact Function.update_self _ _ _

theorem Wexit_of_ne (c : Dev nD) (r : Ref sig .tc) (h : r ≠ main_v39) : Wexit m dats c (Proc.devRef .tc r) = V m c r := by
  unfold Wexit
  exact Function.update_of_ne (StableHlo.devRef_ne_of_ne h : (Proc.devRef .tc r : DevRef τ sig) ≠ Proc.devRef .tc main_v39) _ _

abbrev hostOps1_W : List (Ref sig .tc) := [main_cst_10, main_v40, main_v41, main_cst_11, main_v42, main_v43]

theorem hostOps1_writes : (hostOps1 : List (HloOp τ sig (Elt F))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem after1_of (W : Valuation τ sig (Elt F)) (r : Ref sig .tc) (h : r ∉ (hostOps1_W : List (Ref sig .tc))) :
    StableHlo.after hostOps1 W (Proc.devRef .tc r) = W (Proc.devRef .tc r) :=
  StableHlo.after_of_writes_sub hostOps1 W hostOps1_writes h

variable (hA : ∀ c w, (dats 0 c).A w = V m c (Pipeline.arrRef spec0 w))

include hA in
theorem arrAt_exit (c : Dev nD) : ∀ w : Fin 7, (dats 0 c).arrAt w cfg0.N = Wexit m dats c (Proc.devRef .tc (Pipeline.arrRef spec0 w))
  | 0 => ((dats 0 c).arrAt_in 0 rfl _).trans ((hA c 0).trans (Wexit_of_ne m dats c _ (by decide)).symm)
  | 1 => ((dats 0 c).arrAt_in 1 rfl _).trans ((hA c 1).trans (Wexit_of_ne m dats c _ (by decide)).symm)
  | 2 => ((dats 0 c).arrAt_in 2 rfl _).trans ((hA c 2).trans (Wexit_of_ne m dats c _ (by decide)).symm)
  | 3 => ((dats 0 c).arrAt_in 3 rfl _).trans ((hA c 3).trans (Wexit_of_ne m dats c _ (by decide)).symm)
  | 4 => ((dats 0 c).arrAt_in 4 rfl _).trans ((hA c 4).trans (Wexit_of_ne m dats c _ (by decide)).symm)
  | 5 => ((dats 0 c).arrAt_in 5 rfl _).trans ((hA c 5).trans (Wexit_of_ne m dats c _ (by decide)).symm)
  | 6 => (Wexit_out m dats c).symm
  | ⟨_ + 7, h⟩ => absurd h (Nat.not_lt.2 (Nat.le_add_left _ _))

theorem Wfin_arr (c : Dev nD) : ∀ w : Fin 7, Wfin m dats c (Proc.devRef .tc (Pipeline.arrRef spec0 w)) = Wexit m dats c (Proc.devRef .tc (Pipeline.arrRef spec0 w))
  | 0 => after1_of _ _ (by decide) | 1 => after1_of _ _ (by decide) | 2 => after1_of _ _ (by decide) | 3 => after1_of _ _ (by decide)
  | 4 => after1_of _ _ (by decide) | 5 => after1_of _ _ (by decide) | 6 => after1_of _ _ (by decide)
  | ⟨_ + 7, h⟩ => absurd h (Nat.not_lt.2 (Nat.le_add_left _ _))

end Exit

theorem V_of_unwritten (c : Dev nD) (r : Ref sig .tc)
    (h : ∀ op ∈ (List.flatten [hostOps0, hostOps0_1, hostOps0_2] : List (HloOp τ sig (Elt F))), (Proc.devRef .tc r : DevRef τ sig) ∉ op.writes) :
    V m c r = m ((c : Thread nD τ).loc r) :=
  StableHlo.after_of_forall_not_mem (b := Proc.devRef .tc r) _ _ h

theorem V_main_arg (c : Dev nD) (r : Ref sig .tc) (hr : r = main_arg0 ∨ r = main_arg1) : V m c r = m ((c : Thread nD τ).loc r) := by
  rcases hr with rfl | rfl <;>
  exact V_of_unwritten m c _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

section Run

variable (dats : (p : Fin 1) → (c : Dev nD) → Dat τ (Elt F) Unit ℕ (UR sig nD τ) ℕ (cfgs p) c)
  (hA : ∀ c w, (dats 0 c).A w = V m c (Pipeline.arrRef spec0 w))
  (hs0 : ∀ c, (dats 0 c).share 0 = fullShare.left) (hs1 : ∀ c, (dats 0 c).share 1 = fullShare.right)
  (hs2 : ∀ c, (dats 0 c).share 2 = fullShare) (hs3 : ∀ c, (dats 0 c).share 3 = fullShare) (hs4 : ∀ c, (dats 0 c).share 4 = fullShare)
  (hs5 : ∀ c, (dats 0 c).share 5 = fullShare) (hs6 : ∀ c, (dats 0 c).share 6 = fullShare)

theorem held_split (c : Dev nD) (W : Valuation τ sig (Elt F)) :
    (StableHlo.held (c.tc : Thread nD τ) (Pipeline.ucRefs τ sig) W : sProp 𝕄)
      = iprop(Pipeline.arrBufs spec0 c (fun b => W (Proc.devRef .tc b)) ∗ Pipeline.unscopedRest spec0 c (fun b => W (Proc.devRef .tc b))) := by
  rw [← Pipeline.unscopedBufs_held (Ix := Unit) (Name := ℕ) (U := UR sig nD τ) (Lvl := ℕ) c W]
  exact Pipeline.PerCore.unscopedBufs_split₀ (fun _ => cfgs) (0 : Fin 1) c winFacts₀0.arr_unscoped _

theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

include hA hs0 hs1 hs2 hs3 hs4 hs5 hs6 in
set_option backward.isDefEq.respectTransparency.types false in
theorem tail (c : Dev nD) (Q' : PUnit → sProp 𝕄) :
    iprop((iprop((dats 0 c).arrays ((dats 0 c).arrAt · cfg0.N) ∗ Pipeline.unscopedRest spec0 c (fun b => Wfin m dats c (Proc.devRef .tc b))) -∗ Q' ⟨⟩)
        ∗ boundary (c.tc : Thread nD τ) ∗ (dats 0 c).arrays ((dats 0 c).arrAt · cfg0.N) ∗ Pipeline.unscopedRest spec0 c (V m c))
      ⊢ wp frame (wpE (defs (F := F)) (Variants.lift Variants.none) (c.tc : Thread nD τ) none) Set.univ (Pipeline.chain [StableHlo.seq hostOps1]) Q' := by
  classical
  have harr : ((dats 0 c).arrAt · cfg0.N) = fun w => (fun b : Ref sig .tc => Wexit m dats c (Proc.devRef .tc b)) (Pipeline.arrRef spec0 w) :=
    funext (arrAt_exit m dats hA c)
  have harr' : (fun w => (fun b : Ref sig .tc => Wfin m dats c (Proc.devRef .tc b)) (Pipeline.arrRef spec0 w))
      = fun w => (fun b : Ref sig .tc => Wexit m dats c (Proc.devRef .tc b)) (Pipeline.arrRef spec0 w) :=
    funext (Wfin_arr m dats c)
  have hrest : (Pipeline.unscopedRest spec0 c (V m c) : sProp 𝕄) = Pipeline.unscopedRest spec0 c (fun b => Wexit m dats c (Proc.devRef .tc b)) := by
    unfold Pipeline.unscopedRest
    exact bigSep_congr fun b hb => by
      dsimp only
      rw [Wexit_of_ne m dats c b fun e => (Finset.mem_sdiff.mp hb).2 (Finset.mem_image.mpr ⟨6, Finset.mem_univ _, e.symm⟩)]
  rw [harr, hrest]
  show _ ⊢ wp frame (wpE (defs (F := F)) (Variants.lift Variants.none) (c.tc : Thread nD τ) none) Set.univ
    (Pipeline.chain (([hostOps1] : List (List (HloOp τ sig (Elt F)))).map StableHlo.seq ++ [])) Q'
  iintro ⟨Hk, Hb, Ha, Hr⟩
  ihave Hbufs := (bufs_of_arrays (dats 0 c) (hs0 c) (hs1 c) (hs2 c) (hs3 c) (hs4 c) (hs5 c) (hs6 c) (fun b => Wexit m dats c (Proc.devRef .tc b))) $$ Ha
  ihave Hheld := (Entails.of_eq (held_split c (Wexit m dats c)).symm) $$ [Hbufs Hr]
  · isplitl [Hbufs] <;> iassumption
  iapply (Pipeline.wp_seqs_then (fun q => Cfg.toPCfg (Val := Elt F) (cfgs q)) defs₀ Variants.none c (Pipeline.ucRefs τ sig) [] [hostOps1] tail_sub tail_fresh (Wexit m dats c)) $$ [Hb Hheld]
  · isplitl [Hb] <;> iassumption
  iintro ⟨Hb, Hheld⟩
  rw [Pipeline.chain_nil, wp_pure,
    show StableHlo.after ([hostOps1] : List (List (HloOp τ sig (Elt F)))).flatten (Wexit m dats c) = Wfin m dats c from by
      simp only [List.flatten_cons, List.flatten_nil, List.append_nil]]
  have hback : (Pipeline.arrBufs spec0 c (fun b => Wfin m dats c (Proc.devRef .tc b)) : sProp 𝕄)
      ⊢ (dats 0 c).arrays (fun w => (fun b : Ref sig .tc => Wexit m dats c (Proc.devRef .tc b)) (Pipeline.arrRef spec0 w)) :=
    (arrays_of_bufs (dats 0 c) (hs0 c) (hs1 c) (hs2 c) (hs3 c) (hs4 c) (hs5 c) (hs6 c) (fun b => Wfin m dats c (Proc.devRef .tc b))).trans
      (Entails.of_eq (congrArg (fun Fw => ((dats 0 c).arrays Fw : sProp 𝕄)) harr'))
  imodintro
  iapply Hk
  ihave H := (Entails.of_eq (held_split c (Wfin m dats c))) $$ Hheld
  icases H with ⟨Hbufs, Hr⟩
  isplitl [Hbufs]
  · iapply hback; iexact Hbufs
  iexact Hr

include hA hs0 hs1 hs2 hs3 hs4 hs5 hs6 in
set_option maxHeartbeats 4000000 in
set_option backward.isDefEq.respectTransparency.types false in
theorem run_main
    (hbody : ∀ c, BodyObligation (dats 0 c) (defs₀ (F := F)) Variants.none () Set.univ)
    (howed : ∀ c t, (dats 0 c).owed t = 0)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v43) = Wfin m dats c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => Cfg.toPCfg (Val := Elt F) (cfgs q)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_of_bufs (dats 0 c) (hs0 c) (hs1 c) (hs2 c) (hs3 c) (hs4 c) (hs5 c) (hs6 c) (V m c)).trans
      (Entails.of_eq (congrArg (fun Fw => ((dats 0 c).arrays Fw : sProp 𝕄)) (funext fun w => (hA c w).symm))))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wfin m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail m dats hA hs0 hs1 hs2 hs3 hs4 hs5 hs6 c Q')
    (QY := fun c s => ∀ b ∈ Pipeline.restRefs sig spec0, s.mem ((c.tc : Thread nD τ).loc b) = Wfin m dats c (Proc.devRef .tc b))
    (hY := fun c s' => by
      rw [Pipeline.unscopedRestP_none]; unfold Pipeline.unscopedRest
      iintro ⟨-, HU, HSI⟩
      imodintro
      iapply (pointsTo_read_all (Pipeline.restRefs sig spec0) (fun b => (c.tc : Thread nD τ).loc b) (fun b => Wfin m dats c (Proc.devRef .tc b)) s')
      isplitl [HU] <;> iassumption)
    (hQ := fun s h c =>
      ⟨(h c).2.2 main_v43 (Pipeline.mem_restRefs_of main_v43 (by decide) (by decide)),
       ((h c).2.2 main_arg0 (Pipeline.mem_restRefs_of main_arg0 (by decide) (by decide))).trans
         ((after1_of _ _ (by decide)).trans ((Wexit_of_ne m dats c main_arg0 (by decide)).trans (V_main_arg m c _ (.inl rfl)))),
       ((h c).2.2 main_arg1 (Pipeline.mem_restRefs_of main_arg1 (by decide) (by decide))).trans
         ((after1_of _ _ (by decide)).trans ((Wexit_of_ne m dats c main_arg1 (by decide)).trans (V_main_arg m c _ (.inr rfl))))⟩)

end Run

end Cert.KernelIdeal.Hand

end
-- ==== Proof.KI.Runs.lean ====
import proofs.«416192_j3616362463447_2_alg».proof.Proof.KI.Entry
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 4 = 0 :=
  (by decide +kernel : ∀ t : Fin grid0.N, cond0_0 (grid0.coords t) ↔ t.val % 4 = 0)

abbrev cond0_1 (i : grid0.Coords) : Prop := k0_cond2 i = 1#1

theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel

theorem liveAt0_1 : ∀ t : Fin cfg0.N, cfg0.idle 1 (grid0.coords t) = false := by decide +kernel

theorem liveAt0_2 : ∀ t : Fin cfg0.N, cfg0.idle 2 (grid0.coords t) = false := by decide +kernel

theorem liveAt0_3 : ∀ t : Fin cfg0.N, cfg0.idle 3 (grid0.coords t) = false := by decide +kernel

theorem liveAt0_4 : ∀ t : Fin cfg0.N, cfg0.idle 4 (grid0.coords t) = false := by decide +kernel

theorem liveAt0_5 : ∀ t : Fin cfg0.N, cfg0.idle 5 (grid0.coords t) = false := by decide +kernel

theorem idleAt0_6_A : ∀ t : Fin cfg0.N, cond0_0 (grid0.coords t) → ¬cond0_1 (grid0.coords t) → cfg0.idle 6 (grid0.coords t) = true := by decide +kernel

theorem noFlush0_6_A : ∀ t : Fin cfg0.N, cond0_0 (grid0.coords t) → ¬cond0_1 (grid0.coords t) → (cfg0.win 6).flush t = false := by decide +kernel

theorem idleAt0_6_B : ∀ t : Fin cfg0.N, ¬cond0_0 (grid0.coords t) → ¬cond0_1 (grid0.coords t) → cfg0.idle 6 (grid0.coords t) = true := by decide +kernel

theorem noFlush0_6_B : ∀ t : Fin cfg0.N, ¬cond0_0 (grid0.coords t) → ¬cond0_1 (grid0.coords t) → (cfg0.win 6).flush t = false := by decide +kernel

theorem liveAt0_6_C : ∀ t : Fin cfg0.N, ¬cond0_0 (grid0.coords t) → cond0_1 (grid0.coords t) → cfg0.idle 6 (grid0.coords t) = false := by decide +kernel

abbrev ms0_0 (t : Fin cfg0.N) : Memref sig .tc .vmem S512x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KI.RunA.lean ====
import proofs.«416192_j3616362463447_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
noncomputable def kernelRun0_A (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : cond0_0 i) (hc1 : ¬cond0_1 i)
    (x0 : Vec F S512x256 .bf16) (x1 : Vec F S8192x256 .bf16) (x2 : Vec F S512x1 .i32) (x3 : Vec F S1x2048 .i32) (x4 : Vec F S1x2048 .f32) (x5 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.RunB.lean ====
import proofs.«416192_j3616362463447_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
noncomputable def kernelRun0_B (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : ¬cond0_1 i)
    (x0 : Vec F S512x256 .bf16) (x1 : Vec F S8192x256 .bf16) (x2 : Vec F S512x1 .i32) (x3 : Vec F S1x2048 .i32) (x4 : Vec F S1x2048 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨[], ?_, ?_, ?_, fun xi6 E K => ?run⟩
  case run =>
    simp only [cc0__balscl_kernel_eq_skeleton]; unfold cc0__balscl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.Hand

end
-- ==== Proof.KI.RunC.lean ====
import proofs.«416192_j3616362463447_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
noncomputable def kernelRun0_C (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬cond0_0 i) (hc1 : cond0_1 i)
    (x0 : Vec F S512x256 .bf16) (x1 : Vec F S8192x256 .bf16) (x2 : Vec F S512x1 .i32) (x3 : Vec F S1x2048 .i32) (x4 : Vec F S1x2048 .f32) (x5 : Vec F S512x1 .f32) (xs0 : Vec F S512x1 .f32) (xs1 : Vec F S512x1 .f32) (xs2 : Vec F S512x1 .f32) :
    Σ' (L6 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__balscl_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__balscl_kernel_eq_skeleton]; unfold cc0__balscl_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Hand

end
-- ==== Proof.KI.Body.lean ====
import proofs.«416192_j3616362463447_2_alg».proof.Proof.KI.RunC
import proofs.«416192_j3616362463447_2_alg».proof.Proof.LibOwns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- What a run's four lists of stored pieces leave: the output block, then the running maximum, normalizer and masked sum. -/
abbrev leaves {P : List (View.Piece (Elt F) S512x1 .f32) → List (View.Piece (Elt F) S512x1 .f32) → List (View.Piece (Elt F) S512x1 .f32) → List (View.Piece (Elt F) S512x1 .f32) → Prop}
    (r : Σ' (L6 LS0 LS1 : List (View.Piece (Elt F) S512x1 .f32)), {LS2 : List (View.Piece (Elt F) S512x1 .f32) // P L6 LS0 LS1 LS2}) : Vec F S512x1 .f32 × Vec F S512x1 .f32 × Vec F S512x1 .f32 × Vec F S512x1 .f32 :=
  (View.canon r.1, View.canon r.2.1, View.canon r.2.2.1, View.canon r.2.2.2.1)

/-- The three runs at grid point `t`: on its staging buffers, the three scratches and its input blocks; `p` is what the point before left. -/
abbrev runA (c : Dev nD) (t : Fin cfg0.N) (h0 : t.val % 4 = 0) (h1 : ¬t.val % 4 = 3) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t)
abbrev runB (c : Dev nD) (t : Fin cfg0.N) (h0 : ¬t.val % 4 = 0) (h1 : ¬t.val % 4 = 3) (p : Vec F S512x1 .f32 × Vec F S512x1 .f32 × Vec F S512x1 .f32 × Vec F S512x1 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) p.2.1 p.2.2.1 p.2.2.2
abbrev runC (c : Dev nD) (t : Fin cfg0.N) (h0 : ¬t.val % 4 = 0) (h1 : t.val % 4 = 3) (p : Vec F S512x1 .f32 × Vec F S512x1 .f32 × Vec F S512x1 .f32 × Vec F S512x1 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) p.2.1 p.2.2.1 p.2.2.2

/-- What the output block and the three scratches hold after the body at position `n`: the point's case run over what position `n - 1` left. -/
def outsAt0 (c : Dev nD) : (n : ℕ) → n < cfg0.N → Vec F S512x1 .f32 × Vec F S512x1 .f32 × Vec F S512x1 .f32 × Vec F S512x1 .f32
  | 0, hn => leaves (runA m c ⟨0, hn⟩ (Nat.zero_mod _) (by show ¬0 % 4 = 3; decide))
  | n + 1, hn =>
    if h0 : (n + 1) % 4 = 0 then leaves (runA m c ⟨n + 1, hn⟩ h0 (by show ¬(n + 1) % 4 = 3; omega))
    else if h1 : (n + 1) % 4 = 3 then leaves (runC m c ⟨n + 1, hn⟩ h0 h1 (outsAt0 c n (Nat.lt_of_succ_lt hn)))
    else leaves (runB m c ⟨n + 1, hn⟩ h0 h1 (outsAt0 c n (Nat.lt_of_succ_lt hn)))

theorem outsAt0_A (c : Dev nD) (t : Fin cfg0.N) (h0 : t.val % 4 = 0) (h1 : ¬t.val % 4 = 3) :
    outsAt0 m c t.val t.isLt = leaves (runA m c t h0 h1) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = leaves (runB m c t h0 h1 (outsAt0 m c (t.val - 1) (Nat.lt_of_le_of_lt (Nat.sub_le _ _) t.isLt))) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 4 = 0) (h1 : t.val % 4 = 3) :
    outsAt0 m c t.val t.isLt = leaves (runC m c t h0 h1 (outsAt0 m c (t.val - 1) (Nat.lt_of_le_of_lt (Nat.sub_le _ _) t.isLt))) := by
  obtain ⟨n, hn⟩ := t
  cases n with
  | zero => exact absurd (Nat.zero_mod _) h0
  | succ n => exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- At any position the invariant gives back the region's own: the scratches' named contents are forgotten. -/
theorem PhiS_any (c : Dev nD) (n : ℕ) (h : n ≤ cfg0.N) : PhiS m c n h ⊢ iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  cases n with
  | zero =>
    show Pipeline.ΦA spec0 c ⊢ _
    rw [PhiA0_eq]
    try exact Entails.refl _
  | succ n =>
    rw [PhiS_succ]
    iintro ⟨⟨HS0, HS1, HS2⟩, Hg⟩
    isplitl [HS0 HS1 HS2]
    · isplitl [HS0]; · iexists _; iexact HS0
      isplitl [HS1]; · iexists _; iexact HS1
      iexists _; iexact HS2
    iexact Hg

/-- The body at any point: its case's run, fed the inputs' blocks and the scratches as the invariant holds them, leaves the scratches (and at a last column block the output block) at the overlay of the pieces it stored. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) t.isLt from rfl, PhiS_succ, PhiS_castSucc m c t,
    show (dats m 0 c).leavesExact 0 t = owns (c : Thread nD τ) (ms0_0 t) fullShare ((dats m 0 c).after 0 t) from by
      unfold Dat.leavesExact; rw [liveAt0_0 t], after0_0,
    show (dats m 0 c).leavesExact 1 t = owns (c : Thread nD τ) (ms0_1 t) fullShare ((dats m 0 c).after 1 t) from by
      unfold Dat.leavesExact; rw [liveAt0_1 t], after0_1,
    show (dats m 0 c).leavesExact 2 t = owns (c : Thread nD τ) (ms0_2 t) fullShare ((dats m 0 c).after 2 t) from by
      unfold Dat.leavesExact; rw [liveAt0_2 t], after0_2,
    show (dats m 0 c).leavesExact 3 t = owns (c : Thread nD τ) (ms0_3 t) fullShare ((dats m 0 c).after 3 t) from by
      unfold Dat.leavesExact; rw [liveAt0_3 t], after0_3,
    show (dats m 0 c).leavesExact 4 t = owns (c : Thread nD τ) (ms0_4 t) fullShare ((dats m 0 c).after 4 t) from by
      unfold Dat.leavesExact; rw [liveAt0_4 t], after0_4,
    show (dats m 0 c).leavesExact 5 t = owns (c : Thread nD τ) (ms0_5 t) fullShare ((dats m 0 c).after 5 t) from by
      unfold Dat.leavesExact; rw [liveAt0_5 t], after0_5]
  by_cases h0 : t.val % 4 = 0
  · have h1 : ¬t.val % 4 = 3 := by omega
    rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h))), outsAt0_A m c t h0 h1]
    dsimp only [leaves]
    iintro ⟨HP, Ho, ⟨%d0, H0⟩, ⟨%d1, H1⟩, ⟨%d2, H2⟩, ⟨%d3, H3⟩, ⟨%d4, H4⟩, ⟨%d5, H5⟩, ⟨%d6, H6⟩⟩
    ihave HP := (PhiS_any m c t.val _) $$ HP
    icases HP with ⟨⟨HS0, HS1, HS2⟩, Hg⟩
    iapply ((runA m c t h0 h1).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iapply (owns_canon (runA m c t h0 h1).2.1 S512x1.size (by sl_kernel_rfl)); iexact HS0
        isplitl [HS1]; · iapply (owns_canon (runA m c t h0 h1).2.2.1 S512x1.size (by sl_kernel_rfl)); iexact HS1
        iapply (owns_canon (runA m c t h0 h1).2.2.2.1 S512x1.size (by sl_kernel_rfl)); iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · rw [PhiS_pos m c _ _ (by omega)]
    by_cases h1 : t.val % 4 = 3
    · rw [show (dats m 0 c).leavesExact 6 t = owns (c : Thread nD τ) (ms0_6 t) fullShare ((dats m 0 c).after 6 t) from by
        unfold Dat.leavesExact; rw [liveAt0_6_C t (fun h => h0 ((hcond0_0 t).mp h)) ((hcond0_1 t).mpr h1)], after0_6, outsAt0_C m c t h0 h1]
      dsimp only [leaves]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iapply (owns_canon (runC m c t h0 h1 _).2.1 S512x1.size (by sl_kernel_rfl)); iexact HS0
          isplitl [HS1]; · iapply (owns_canon (runC m c t h0 h1 _).2.2.1 S512x1.size (by sl_kernel_rfl)); iexact HS1
          iapply (owns_canon (runC m c t h0 h1 _).2.2.2.1 S512x1.size (by sl_kernel_rfl)); iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (owns_canon (runC m c t h0 h1 _).1 S512x1.size (by sl_kernel_rfl)); iexact H6
    · rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h))), outsAt0_B m c t h0 h1]
      dsimp only [leaves]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iapply (owns_canon (runB m c t h0 h1 _).2.1 S512x1.size (by sl_kernel_rfl)); iexact HS0
          isplitl [HS1]; · iapply (owns_canon (runB m c t h0 h1 _).2.2.1 S512x1.size (by sl_kernel_rfl)); iexact HS1
          iapply (owns_canon (runB m c t h0 h1 _).2.2.2.1 S512x1.size (by sl_kernel_rfl)); iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [PhiA0_eq]
  show PhiS m c (Fin.last cfg0.N).val _ ⊢ _
  exact PhiS_any m c _ _

end Cert.KernelIdeal.Hand

end
-- ==== Proof.KI.Run.lean ====
import proofs.«416192_j3616362463447_2_alg».proof.Proof.KI.Launch
import proofs.«416192_j3616362463447_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

theorem run : θ_run defs (onTc (τ := τ) (main (F := F))) ⟨m, fun _ => 0, ρ⟩ (fun r => ∀ c : Dev nD,
      r.2.mem ((c.tc : Thread nD τ).loc main_v43) = Wfin m (dats m) c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_main m ρ (dats m) (A_eq m) (share_0 m) (share_1 m) (share_2 m) (share_3 m) (share_4 m) (share_5 m) (share_6 m)
    (body_obligation m) (fun _ _ => rfl) (hin m) (hout m)

end Cert.KernelIdeal.Hand

end
-- ==== Proof.Spec.lean ====
import Mathlib.Analysis.SpecialFunctions.Log.Basic
import Mathlib.Analysis.SpecialFunctions.Exp
import Mathlib.Algebra.BigOperators.Group.Finset.Basic
import Mathlib.Order.Filter.Basic
import Mathlib.Data.Fintype.Card

noncomputable section

namespace Cert.Spec

open Finset

def temp : ℝ := 13421773 / 134217728

def invTemp : ℝ := 134217728 / 13421773

variable (x : Fin 4096 → Fin 512 → ℝ) (t : Fin 4096 → BitVec 32)

def lab (i : Fin 8192) : BitVec 32 := t ⟨i.val % 4096, Nat.mod_lt _ (by norm_num)⟩

def feat (i : Fin 8192) (k : Fin 256) : ℝ :=
  if h : i.val < 4096 then x ⟨i.val, h⟩ ⟨k.val, by omega⟩ else x ⟨i.val - 4096, by omega⟩ ⟨k.val + 256, by omega⟩

def dot (i j : Fin 8192) : ℝ := ∑ k : Fin 256, feat x i k * feat x j k

def cnt (j : Fin 8192) : ℝ := ((univ.filter fun i : Fin 8192 => lab t i = lab t j).card : ℝ)

def same (i j : Fin 8192) : ℝ := if lab t i = lab t j then 1 else 0

def offd (i j : Fin 8192) : ℝ := if i = j then 0 else 1

def lgR (i j : Fin 8192) : ℝ := dot x i j / temp
def mxR (i : Fin 8192) : ℝ := univ.sup' univ_nonempty (lgR x i)
def zR (i : Fin 8192) : ℝ := ∑ j, Real.exp (lgR x i j - mxR x i) * offd i j / cnt t j
def numR : ℝ := ∑ i, ∑ j, same t i j * offd i j * (lgR x i j - mxR x i - Real.log (zR x t i))
def denR : ℝ := ∑ i, ∑ j, same t i j * offd i j
def lossRef : ℝ := -(numR x t) / denR t

def lgK (i j : Fin 8192) : ℝ := dot x i j * invTemp
def mxK (i : Fin 8192) : ℝ := univ.sup' univ_nonempty (lgK x i)
def zK (i : Fin 8192) : ℝ := ∑ j, Real.exp (lgK x i j - mxK x i) * offd i j * (1 / cnt t j)
def sK (i : Fin 8192) : ℝ := ∑ j, same t i j * offd i j * lgK x i j
def outK (i : Fin 8192) : ℝ := sK x t i - mxK x i * (cnt t i - 1) - (cnt t i - 1) * Real.log (zK x t i)
def lossK : ℝ := -(∑ i, outK x t i) / (∑ i, (cnt t i - 1))

def blockCols (b : ℕ) : Finset (Fin 8192) := univ.filter fun j => 2048 * b ≤ j.val ∧ j.val < 2048 * (b + 1)

def upToCols (b : ℕ) : Finset (Fin 8192) := univ.filter fun j => j.val < 2048 * (b + 1)

theorem upToCols_nonempty (b : ℕ) : (upToCols b).Nonempty := ⟨⟨0, by norm_num⟩, by simp [upToCols]⟩
theorem blockCols_nonempty (b : ℕ) (hb : b < 4) : (blockCols b).Nonempty :=
  ⟨⟨2048 * b, by omega⟩, by simp [blockCols]⟩

def bmax (b : ℕ) (hb : b < 4) (i : Fin 8192) : ℝ := (blockCols b).sup' (blockCols_nonempty b hb) (lgK x i)

def mxB (b : ℕ) (i : Fin 8192) : ℝ := (upToCols b).sup' (upToCols_nonempty b) (lgK x i)

def zB (b : ℕ) (i : Fin 8192) : ℝ := ∑ j ∈ upToCols b, Real.exp (lgK x i j - mxB x b i) * offd i j * (1 / cnt t j)

def sB (b : ℕ) (i : Fin 8192) : ℝ := ∑ j ∈ upToCols b, same t i j * offd i j * lgK x i j

end Cert.Spec

end
-- ==== Proof.LibCounts.lean ====
import Idealize.ShloMosaic.Lib.StableHlo.Predicate
import Idealize.ShloMosaic.Lib.IdealHost
import Idealize.ShloMosaic.Lib.Pipeline.Value
import proofs.«416192_j3616362463447_2_alg».proof.Proof.Spec

noncomputable section

namespace Cert.LibCounts

open Idealize.ShloMosaic Idealize.ShloMosaic.StableHlo.Predicate Finset

theorem ofFin_eta {n : ℕ} (j : (⟨1, ![n]⟩ : Shape).Idx) : Shape.Idx.ofFin (n := n) (j 0) = j := by
  funext a
  have ha : a = 0 := Subsingleton.elim _ _
  subst ha
  exact Shape.Idx.ofFin_zero _

def idxEquiv (n : ℕ) : (⟨1, ![n]⟩ : Shape).Idx ≃ Fin n where
  toFun j := j 0
  invFun := Shape.Idx.ofFin
  left_inv := ofFin_eta
  right_inv _ := Shape.Idx.ofFin_zero _

theorem not_slt_zero {b : BitVec 32} (h : b.toNat < 2 ^ 31) : IntOp.cmpi .slt b 0#32 = 0#1 :=
  ValueIdx.eq_zero_of_ne_one fun e => by
    have := (slt_iff_toNat h (by decide)).1 e
    simp at this

theorem normalise_eq {s : Shape} (idx z c : IVec s 32) (hz : ∀ j, z j = 0#32) (h : ∀ j, (idx j).toNat < 2 ^ 31) :
    select (cmpi .slt idx z) (addi idx c) idx = idx := by
  funext j
  show Scalar.select (IntOp.cmpi .slt (idx j) (z j)) (IntOp.addi (idx j) (c j)) (idx j) = idx j
  rw [hz j, not_slt_zero (h j)]
  exact ValueIdx.select_zero _ _

section Scatter
variable {N n : ℕ} {φ : FTy} (d : ScatterDims ⟨1, ![N]⟩ ⟨2, ![n, 1]⟩ ⟨1, ![n]⟩)
  (huw : d.updateWindowDims = []) (hiw : d.insertedWindowDims = [0])
  (hsd : d.scatterDimsToOperandDims = [0]) (hiv : d.indexVectorDim = 1)
  (hb : (⟨1, ![n]⟩ : Shape).BroadcastsInDim ⟨2, ![n, 1]⟩ ![0])

include hsd hiv in
theorem start_eq (idx : IVec ⟨1, ![n]⟩ 32) (j : (⟨1, ![n]⟩ : Shape).Idx) (a : Fin 1) :
    d.start j (broadcastInDim ⟨2, ![n, 1]⟩ ![0] hb idx) a = (idx j).toInt := by
  have ha : a = 0 := Subsingleton.elim _ _
  subst ha
  have hm : (0 : Fin 1) ∈ d.scatterDimsToOperandDims := by rw [hsd]; exact List.mem_singleton.mpr rfl
  unfold ScatterDims.start
  rw [dif_pos hm]
  have hsi : d.siIdx j ⟨List.idxOf (0 : Fin 1) d.scatterDimsToOperandDims, List.idxOf_lt_length_iff.2 hm⟩ = ixP (n := n) (j 0) := by
    funext b
    match b with
    | ⟨0, _⟩ =>
      unfold ScatterDims.siIdx
      rw [dif_neg (by rw [hiv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hiv])]
      apply Fin.ext
      show List.idxOf (0 : Fin 1) d.scatterDimsToOperandDims = 0
      rw [hsd]; simp
  rw [hsi, bcast_col1 (n := n) hb idx (j 0), ofFin_eta]

include hiw in
theorem window_eq (j : (⟨1, ![n]⟩ : Shape).Idx) (a : Fin 1) : d.window j a = 0 := by
  unfold ScatterDims.window
  rw [dif_neg]
  have ha : a = 0 := Subsingleton.elim _ _
  subst ha
  simp [ScatterDims.sKept, Shape.kept, hiw]

include huw hiw hsd hiv in
theorem resultIdx?_eq_some_iff (idx : IVec ⟨1, ![n]⟩ 32) (j : (⟨1, ![n]⟩ : Shape).Idx) (k : (⟨1, ![N]⟩ : Shape).Idx) :
    d.resultIdx? j (broadcastInDim ⟨2, ![n, 1]⟩ ![0] hb idx) = some k ↔ (idx j).toInt = ((k 0).val : ℤ) := by
  unfold ScatterDims.resultIdx?
  simp only [start_eq d hsd hiv hb idx j, window_eq d hiw j, Nat.cast_zero, add_zero]
  constructor
  · intro h
    split at h
    · next hr =>
      have h0 := congrArg Fin.val (congrFun (Option.some.inj h) 0)
      have h1 := (hr 0).1
      simp only at h0
      omega
    · exact absurd h (by simp)
  · intro h
    have hk : (k 0).val < N := (k 0).isLt
    rw [dif_pos (fun a => by
      have ha : a = 0 := Subsingleton.elim _ _
      subst ha
      show 0 ≤ (idx j).toInt ∧ (idx j).toInt < ((N : ℕ) : ℤ)
      omega)]
    congr 1
    funext a
    have ha : a = 0 := Subsingleton.elim _ _
    subst ha
    apply Fin.ext
    show (idx j).toInt.toNat = (k 0).val
    omega

include huw hiw hsd hiv in
theorem scatterAdd_apply (x : FVec Ideal ⟨1, ![N]⟩ φ) (idx : IVec ⟨1, ![n]⟩ 32) (upd : FVec Ideal ⟨1, ![n]⟩ φ)
    (k : (⟨1, ![N]⟩ : Shape).Idx) :
    Host.scatterAdd d x (broadcastInDim ⟨2, ![n, 1]⟩ ![0] hb idx) upd k
      = x k + ∑ j ∈ univ.filter (fun j : (⟨1, ![n]⟩ : Shape).Idx => (idx j).toInt = ((k 0).val : ℤ)), upd j := by
  show x k + ∑ j ∈ univ.filter (fun j => d.resultIdx? j (broadcastInDim ⟨2, ![n, 1]⟩ ![0] hb idx) = some k), upd j = _
  congr 1
  refine Finset.sum_congr ?_ (fun _ _ => rfl)
  ext j
  simp only [mem_filter, mem_univ, true_and]
  exact resultIdx?_eq_some_iff d huw hiw hsd hiv hb idx j k

include huw hiw hsd hiv in
theorem scatterAdd_count (hN : N ≤ 2 ^ 31) (x : FVec Ideal ⟨1, ![N]⟩ φ) (idx : IVec ⟨1, ![n]⟩ 32) (upd : FVec Ideal ⟨1, ![n]⟩ φ)
    (hx : ∀ k, x k = 0) (hu : ∀ j, upd j = 1) (h : ∀ j, (idx j).toNat < N) (k : (⟨1, ![N]⟩ : Shape).Idx) :
    Host.scatterAdd d x (broadcastInDim ⟨2, ![n, 1]⟩ ![0] hb idx) upd k
      = (((univ.filter fun j : (⟨1, ![n]⟩ : Shape).Idx => (idx j).toNat = (k 0).val).card : ℕ) : EReal) := by
  rw [scatterAdd_apply d huw hiw hsd hiv hb, hx k, zero_add, Finset.sum_congr rfl (fun j _ => hu j)]
  have hf : (univ.filter fun j : (⟨1, ![n]⟩ : Shape).Idx => (idx j).toInt = ((k 0).val : ℤ))
      = univ.filter fun j : (⟨1, ![n]⟩ : Shape).Idx => (idx j).toNat = (k 0).val := by
    ext j
    simp only [mem_filter, mem_univ, true_and]
    rw [toInt_eq_toNat_of_lt (lt_of_lt_of_le (h j) hN)]
    exact Nat.cast_inj
  rw [hf]
  simp

end Scatter

section Gather
variable {α : Type} {N n : ℕ} (g : GatherDims ⟨1, ![N]⟩ ⟨2, ![n, 1]⟩ ⟨1, ![n]⟩)
  (hcoll : g.collapsedSliceDims = [0]) (hob : g.operandBatchingDims = [])
  (hsim : g.startIndexMap = [0]) (hivd : g.indexVectorDim = 1)
  (hb : (⟨1, ![n]⟩ : Shape).BroadcastsInDim ⟨2, ![n, 1]⟩ ![0])

include hcoll hob hsim hivd in
theorem gather_apply (hN : N ≤ 2 ^ 31) (v : (⟨1, ![N]⟩ : Shape).Idx → α) (idx : IVec ⟨1, ![n]⟩ 32)
    (j : (⟨1, ![n]⟩ : Shape).Idx) (h : (idx j).toNat < N) :
    Host.gather g v (broadcastInDim ⟨2, ![n, 1]⟩ ![0] hb idx) j = v (Shape.Idx.ofFin ⟨(idx j).toNat, h⟩) := by
  have e := gather_take (n := n) g hcoll hob hsim hivd v (broadcastInDim ⟨2, ![n, 1]⟩ ![0] hb idx) (j 0) (by omega : 0 < N)
  rw [ofFin_eta] at e
  rw [e]
  congr 2
  apply Fin.ext
  show min (broadcastInDim ⟨2, ![n, 1]⟩ ![0] hb idx (ixP (n := n) (j 0))).toInt.toNat (N - 1) = (idx j).toNat
  rw [bcast_col1 (n := n) hb idx (j 0), ofFin_eta, toInt_eq_toNat_of_lt (lt_of_lt_of_le h hN)]
  simp only [Int.toNat_natCast]
  omega

end Gather

section Both
variable {N n : ℕ} {φ : FTy} (d : ScatterDims ⟨1, ![N]⟩ ⟨2, ![n, 1]⟩ ⟨1, ![n]⟩)
  (huw : d.updateWindowDims = []) (hiw : d.insertedWindowDims = [0])
  (hsd : d.scatterDimsToOperandDims = [0]) (hiv : d.indexVectorDim = 1)
  (g : GatherDims ⟨1, ![N]⟩ ⟨2, ![n, 1]⟩ ⟨1, ![n]⟩)
  (hcoll : g.collapsedSliceDims = [0]) (hob : g.operandBatchingDims = [])
  (hsim : g.startIndexMap = [0]) (hivd : g.indexVectorDim = 1)
  (hb : (⟨1, ![n]⟩ : Shape).BroadcastsInDim ⟨2, ![n, 1]⟩ ![0])

include huw hiw hsd hiv in
theorem scatterAdd_count_at (hN : N ≤ 2 ^ 31) (x : FVec Ideal ⟨1, ![N]⟩ φ) (idx : IVec ⟨1, ![n]⟩ 32)
    (upd : FVec Ideal ⟨1, ![n]⟩ φ) (hx : ∀ k, x k = 0) (hu : ∀ j, upd j = 1) (h : ∀ j, (idx j).toNat < N)
    (j : (⟨1, ![n]⟩ : Shape).Idx) :
    Host.scatterAdd d x (broadcastInDim ⟨2, ![n, 1]⟩ ![0] hb idx) upd (Shape.Idx.ofFin ⟨(idx j).toNat, h j⟩)
      = (((univ.filter fun i : (⟨1, ![n]⟩ : Shape).Idx => idx i = idx j).card : ℕ) : EReal) := by
  rw [scatterAdd_count d huw hiw hsd hiv hb hN x idx upd hx hu h]
  congr 2
  ext i
  simp only [mem_filter, mem_univ, true_and, Shape.Idx.ofFin_zero]
  exact BitVec.toNat_inj

include huw hiw hsd hiv hcoll hob hsim hivd in
theorem gather_scatterAdd_count (hN : N ≤ 2 ^ 31) (x : FVec Ideal ⟨1, ![N]⟩ φ) (idx : IVec ⟨1, ![n]⟩ 32)
    (upd : FVec Ideal ⟨1, ![n]⟩ φ) (hx : ∀ k, x k = 0) (hu : ∀ j, upd j = 1) (h : ∀ j, (idx j).toNat < N)
    (j : (⟨1, ![n]⟩ : Shape).Idx) :
    Host.gather g (Host.scatterAdd d x (broadcastInDim ⟨2, ![n, 1]⟩ ![0] hb idx) upd)
        (broadcastInDim ⟨2, ![n, 1]⟩ ![0] hb idx) j
      = (((univ.filter fun i : (⟨1, ![n]⟩ : Shape).Idx => idx i = idx j).card : ℕ) : EReal) := by
  rw [gather_apply g hcoll hob hsim hivd hb hN _ idx j (h j)]
  exact scatterAdd_count_at d huw hiw hsd hiv hb hN x idx upd hx hu h j

end Both

theorem zeros_apply {t : Shape} (hs : (⟨0, ![]⟩ : Shape).BroadcastsInDim t ![]) (j : t.Idx) :
    broadcastInDim t ![] hs (constant (F := Ideal) ⟨0, ![]⟩ .f32 0x00000000#32) j = 0 := by
  show Ideal.ofBits .f32 0x00000000#32 = 0
  simp [Ideal.ofBits, Ideal.ieee]

theorem ones_apply {t : Shape} (hs : (⟨0, ![]⟩ : Shape).BroadcastsInDim t ![]) (j : t.Idx) :
    broadcastInDim t ![] hs (constant (F := Ideal) ⟨0, ![]⟩ .f32 0x3F800000#32) j = 1 :=
  Ideal.ofBits_one_f32

section Labels

def labels (a1 : IVec ⟨1, ![4096]⟩ 32) : Fin 4096 → BitVec 32 := fun i => a1 (Shape.Idx.ofFin i)

theorem concat_labels (a1 : IVec ⟨1, ![4096]⟩ 32)
    (hc : Shape.Concatenates [(⟨1, ![4096]⟩ : Shape), ⟨1, ![4096]⟩] ⟨1, ![8192]⟩ 0) (j : (⟨1, ![8192]⟩ : Shape).Idx) :
    concatenate ⟨1, ![8192]⟩ 0 [⟨⟨1, ![4096]⟩, a1⟩, ⟨⟨1, ![4096]⟩, a1⟩] hc j = Cert.Spec.lab (labels a1) (j 0) := by
  have hj : (j 0).val < 8192 := (j 0).isLt
  by_cases hlt : (j 0).val < 4096
  · rw [concatenate_pair_apply_left (0 : Fin 1) a1 a1 hc j rfl (Shape.Idx.ofFin ⟨(j 0).val, hlt⟩) (fun b => by
      have hb : b = 0 := Subsingleton.elim _ _
      subst hb; rfl)]
    have e : (⟨(j 0).val, hlt⟩ : Fin 4096) = ⟨(j 0).val % 4096, Nat.mod_lt _ (by norm_num)⟩ :=
      Fin.mk_eq_mk.2 (by omega)
    show a1 (Shape.Idx.ofFin ⟨(j 0).val, hlt⟩) = a1 (Shape.Idx.ofFin ⟨(j 0).val % 4096, Nat.mod_lt _ (by norm_num)⟩)
    rw [e]
  · rw [concatenate_pair_apply_right (0 : Fin 1) a1 a1 hc j rfl rfl (Shape.Idx.ofFin ⟨(j 0).val - 4096, by omega⟩)
      (fun b hb => absurd (Subsingleton.elim _ _) hb) (by show (j 0).val - 4096 + 4096 = (j 0).val; omega)]
    have e : (⟨(j 0).val - 4096, by omega⟩ : Fin 4096) = ⟨(j 0).val % 4096, Nat.mod_lt _ (by norm_num)⟩ :=
      Fin.mk_eq_mk.2 (by omega)
    show a1 (Shape.Idx.ofFin ⟨(j 0).val - 4096, by omega⟩) = a1 (Shape.Idx.ofFin ⟨(j 0).val % 4096, Nat.mod_lt _ (by norm_num)⟩)
    rw [e]

theorem card_same_label (t : Fin 4096 → BitVec 32) (idx : IVec ⟨1, ![8192]⟩ 32) (hidx : ∀ j, idx j = Cert.Spec.lab t (j 0))
    (j : (⟨1, ![8192]⟩ : Shape).Idx) :
    (((univ.filter fun i : (⟨1, ![8192]⟩ : Shape).Idx => idx i = idx j).card : ℕ) : EReal)
      = ((Cert.Spec.cnt t (j 0) : ℝ) : EReal) := by
  unfold Cert.Spec.cnt
  rw [EReal.coe_natCast]
  congr 1
  refine Finset.card_equiv (idxEquiv 8192) (fun i => ?_)
  simp only [mem_filter, mem_univ, true_and, hidx i, hidx j]
  rfl

theorem cnt_pos (t : Fin 4096 → BitVec 32) (j : Fin 8192) : 0 < Cert.Spec.cnt t j := by
  unfold Cert.Spec.cnt
  exact Nat.cast_pos.2 (Finset.card_pos.2 ⟨j, by simp⟩)

end Labels

section LabelCounts
variable {φ : FTy} (d : ScatterDims ⟨1, ![100]⟩ ⟨2, ![8192, 1]⟩ ⟨1, ![8192]⟩)
  (huw : d.updateWindowDims = []) (hiw : d.insertedWindowDims = [0])
  (hsd : d.scatterDimsToOperandDims = [0]) (hiv : d.indexVectorDim = 1)
  (g : GatherDims ⟨1, ![100]⟩ ⟨2, ![8192, 1]⟩ ⟨1, ![8192]⟩)
  (hcoll : g.collapsedSliceDims = [0]) (hob : g.operandBatchingDims = [])
  (hsim : g.startIndexMap = [0]) (hivd : g.indexVectorDim = 1)
  (hb : (⟨1, ![8192]⟩ : Shape).BroadcastsInDim ⟨2, ![8192, 1]⟩ ![0])

theorem lab_lt (t : Fin 4096 → BitVec 32) (ht : ∀ i, (t i).toNat < 100) (j : Fin 8192) :
    (Cert.Spec.lab t j).toNat < 100 := ht _

include huw hiw hsd hiv in
theorem counts_at_label (t : Fin 4096 → BitVec 32) (x : FVec Ideal ⟨1, ![100]⟩ φ) (idx : IVec ⟨1, ![8192]⟩ 32)
    (upd : FVec Ideal ⟨1, ![8192]⟩ φ) (hx : ∀ k, x k = 0) (hu : ∀ j, upd j = 1) (h : ∀ j, (idx j).toNat < 100)
    (hidx : ∀ j, idx j = Cert.Spec.lab t (j 0)) (j : (⟨1, ![8192]⟩ : Shape).Idx) :
    Host.scatterAdd d x (broadcastInDim ⟨2, ![8192, 1]⟩ ![0] hb idx) upd (Shape.Idx.ofFin ⟨(idx j).toNat, h j⟩)
      = ((Cert.Spec.cnt t (j 0) : ℝ) : EReal) :=
  (scatterAdd_count_at d huw hiw hsd hiv hb (by norm_num) x idx upd hx hu h j).trans (card_same_label t idx hidx j)

include huw hiw hsd hiv hcoll hob hsim hivd in
theorem gather_counts_label (t : Fin 4096 → BitVec 32) (x : FVec Ideal ⟨1, ![100]⟩ φ) (idx : IVec ⟨1, ![8192]⟩ 32)
    (upd : FVec Ideal ⟨1, ![8192]⟩ φ) (hx : ∀ k, x k = 0) (hu : ∀ j, upd j = 1) (h : ∀ j, (idx j).toNat < 100)
    (hidx : ∀ j, idx j = Cert.Spec.lab t (j 0)) (j : (⟨1, ![8192]⟩ : Shape).Idx) :
    Host.gather g (Host.scatterAdd d x (broadcastInDim ⟨2, ![8192, 1]⟩ ![0] hb idx) upd)
        (broadcastInDim ⟨2, ![8192, 1]⟩ ![0] hb idx) j
      = ((Cert.Spec.cnt t (j 0) : ℝ) : EReal) :=
  (gather_scatterAdd_count d huw hiw hsd hiv g hcoll hob hsim hivd hb (by norm_num) x idx upd hx hu h j).trans
    (card_same_label t idx hidx j)

end LabelCounts

end Cert.LibCounts

end
-- ==== Proof.KI.Host.lean ====
import proofs.«416192_j3616362463447_2_alg».proof.Proof.KI.Entry
import proofs.«416192_j3616362463447_2_alg».proof.Proof.Spec
import proofs.«416192_j3616362463447_2_alg».proof.Proof.LibCounts
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost
import Idealize.ShloMosaic.Lib.ValueIdxRank1

noncomputable section

namespace Cert.KernelIdeal.HandHost

open Cert.KernelIdeal Cert.KernelIdeal.Gen Cert.KernelIdeal.Hand
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

theorem idx1_lt {n : Nat} (j : (⟨1, ![n]⟩ : Shape).Idx) : (j 0).val < n := (j 0).isLt

variable (c : Dev nD) (x : Fin 4096 → Fin 512 → ℝ) (t : Fin 4096 → BitVec 32)

set_option maxHeartbeats 400000 in
theorem V_v34_raw : (V m c main_v34 : S8192x256.Idx → EReal) =
    truncf (F := Ideal) .bf16 (concatenate S8192x256 0
      [⟨S4096x256, extractStridedSlice S4096x256 ![0, 0] (m ((c : Thread nD τ).loc main_arg0) : S4096x512.Idx → EReal) slices_S4096x512_S4096x256_0_0⟩,
       ⟨S4096x256, extractStridedSlice S4096x256 ![0, 256] (m ((c : Thread nD τ).loc main_arg0) : S4096x512.Idx → EReal) slices_S4096x512_S4096x256_0_256⟩]
      concatenates_S4096x256_S4096x256_S8192x256_d0) bitsLt_bf16_f32 := by
  dsimp only [Hand.V, Hand.V0]
  simp only [Gen.hostOps0, Gen.hostOps0_1, Gen.hostOps0_2, List.flatten_cons, List.flatten_nil, List.append_nil, List.cons_append, List.nil_append]
  after_results

theorem stack_apply (X : S4096x512.Idx → EReal) (a : Fin 8192) (b : Fin 256) :
    concatenate S8192x256 0
      [⟨S4096x256, extractStridedSlice S4096x256 ![0, 0] X slices_S4096x512_S4096x256_0_0⟩,
       ⟨S4096x256, extractStridedSlice S4096x256 ![0, 256] X slices_S4096x512_S4096x256_0_256⟩]
      concatenates_S4096x256_S4096x256_S8192x256_d0 (ix2 a b)
    = if h : a.val < 4096 then X (ix2 (⟨a.val, h⟩ : Fin 4096) (⟨b.val, by omega⟩ : Fin 512))
      else X (ix2 (⟨a.val - 4096, by omega⟩ : Fin 4096) (⟨b.val + 256, by omega⟩ : Fin 512)) := by
  by_cases h : a.val < 4096
  · rw [dif_pos h]
    refine (concatenate_pair_apply_left (t := S8192x256) (s₁ := S4096x256) (s₂ := S4096x256) _ _ _ _ (ix2 a b) rfl (ix2 (⟨a.val, h⟩ : Fin 4096) b : S4096x256.Idx) ?_).trans ?_
    · intro d; match d with
      | ⟨0, _⟩ => rfl
      | ⟨1, _⟩ => rfl
    · refine extractStridedSlice_apply _ _ _ _ _ ?_
      intro d; match d with
      | ⟨0, _⟩ => show a.val = 0 + a.val; omega
      | ⟨1, _⟩ => show b.val = 0 + b.val; omega
  · rw [dif_neg h]
    refine (concatenate_pair_apply_right (t := S8192x256) (s₁ := S4096x256) (s₂ := S4096x256) _ _ _ _ (ix2 a b) rfl rfl (ix2 (⟨a.val - 4096, by omega⟩ : Fin 4096) b : S4096x256.Idx) ?_ ?_).trans ?_
    · intro d hd; match d, hd with
      | ⟨0, _⟩, hd => exact absurd rfl hd
      | ⟨1, _⟩, _ => rfl
    · show a.val - 4096 + 4096 = a.val; omega
    · refine extractStridedSlice_apply _ _ _ _ _ ?_
      intro d; match d with
      | ⟨0, _⟩ => show a.val - 4096 = 0 + (a.val - 4096); omega
      | ⟨1, _⟩ => show b.val + 256 = 256 + b.val; omega

variable (hx : (m ((c : Thread nD τ).loc main_arg0) : S4096x512.Idx → EReal)
    = fun i : S4096x512.Idx => ((x ⟨(i 0).val, idx2_lt0 i⟩ ⟨(i 1).val, idx2_lt1 i⟩ : ℝ) : EReal))

include hx in
theorem V_v34_apply (a : Fin 8192) (b : Fin 256) :
    (V m c main_v34 : S8192x256.Idx → EReal) (ix2 a b) = ((Cert.Spec.feat x a b : ℝ) : EReal) := by
  refine (congrFun (V_v34_raw m c) (ix2 a b)).trans ?_
  refine (truncf_apply (φ := .f32) (ψ := .bf16) _ bitsLt_bf16_f32 (ix2 a b)).trans ?_
  refine (stack_apply _ a b).trans ?_
  rw [hx]
  unfold Cert.Spec.feat
  by_cases h : a.val < 4096
  · rw [dif_pos h, dif_pos h]
  · rw [dif_neg h, dif_neg h]

theorem labels_stack_apply (T : S4096.Idx → BitVec 32) (a : Fin 8192) :
    concatenate S8192 0 [⟨S4096, T⟩, ⟨S4096, T⟩] concatenates_S4096_S4096_S8192_d0 (ix1 a)
      = T (ix1 (⟨a.val % 4096, Nat.mod_lt _ (by norm_num)⟩ : Fin 4096)) := by
  by_cases h : a.val < 4096
  · refine (concatenate_pair_apply_left (t := S8192) (s₁ := S4096) (s₂ := S4096) _ _ _ _ (ix1 a) rfl (ix1 (⟨a.val, h⟩ : Fin 4096) : S4096.Idx) ?_).trans ?_
    · intro d; match d with
      | ⟨0, _⟩ => rfl
    · refine congrArg T (congrArg ix1 (Fin.ext ?_))
      show a.val = a.val % 4096; omega
  · refine (concatenate_pair_apply_right (t := S8192) (s₁ := S4096) (s₂ := S4096) _ _ _ _ (ix1 a) rfl rfl (ix1 (⟨a.val - 4096, by omega⟩ : Fin 4096) : S4096.Idx) ?_ ?_).trans ?_
    · intro d hd; match d, hd with
      | ⟨0, _⟩, hd => exact absurd rfl hd
    · show a.val - 4096 + 4096 = a.val; omega
    · refine congrArg T (congrArg ix1 (Fin.ext ?_))
      show a.val - 4096 = a.val % 4096; omega

set_option maxHeartbeats 400000 in
theorem V_v35_raw : (V m c main_v35 : S8192x1.Idx → BitVec 32) =
    shapeCast S8192x1 (concatenate S8192 0 [⟨S4096, (m ((c : Thread nD τ).loc main_arg1) : S4096.Idx → BitVec 32)⟩,
      ⟨S4096, (m ((c : Thread nD τ).loc main_arg1) : S4096.Idx → BitVec 32)⟩] concatenates_S4096_S4096_S8192_d0) shapeCasts_S8192_S8192x1 := by
  dsimp only [Hand.V, Hand.V0]
  simp only [Gen.hostOps0, Gen.hostOps0_1, Gen.hostOps0_2, List.flatten_cons, List.flatten_nil, List.append_nil, List.cons_append, List.nil_append]
  after_results
  rfl

set_option maxHeartbeats 400000 in
theorem V_v36_raw : (V m c main_v36 : S1x8192.Idx → BitVec 32) =
    shapeCast S1x8192 (concatenate S8192 0 [⟨S4096, (m ((c : Thread nD τ).loc main_arg1) : S4096.Idx → BitVec 32)⟩,
      ⟨S4096, (m ((c : Thread nD τ).loc main_arg1) : S4096.Idx → BitVec 32)⟩] concatenates_S4096_S4096_S8192_d0) shapeCasts_S8192_S1x8192 := by
  dsimp only [Hand.V, Hand.V0]
  simp only [Gen.hostOps0, Gen.hostOps0_1, Gen.hostOps0_2, List.flatten_cons, List.flatten_nil, List.append_nil, List.cons_append, List.nil_append]
  after_results
  rfl

variable (hr : ∀ k, (t k).toNat < 100)
variable (ht : (m ((c : Thread nD τ).loc main_arg1) : S4096.Idx → BitVec 32) = fun i : S4096.Idx => t ⟨(i 0).val, idx1_lt i⟩)

include ht in
theorem V_v35_apply (a : Fin 8192) (b : Fin 1) :
    (V m c main_v35 : S8192x1.Idx → BitVec 32) (ix2 a b) = Cert.Spec.lab t a := by
  refine (congrFun (V_v35_raw m c) (ix2 a b)).trans ?_
  refine (shapeCast_apply _ _ (ix2 a b) (ix1 a) ?_).trans ?_
  · rw [Shape.rowMajor_val_one, Shape.rowMajor_val_two]
    show a.val = a.val * 1 + b.val; omega
  · refine (labels_stack_apply _ a).trans ?_
    rw [ht]; rfl

include ht in
theorem V_v36_apply (b : Fin 1) (a : Fin 8192) :
    (V m c main_v36 : S1x8192.Idx → BitVec 32) (ix2 b a) = Cert.Spec.lab t a := by
  refine (congrFun (V_v36_raw m c) (ix2 b a)).trans ?_
  refine (shapeCast_apply _ _ (ix2 b a) (ix1 a) ?_).trans ?_
  · rw [Shape.rowMajor_val_one, Shape.rowMajor_val_two]
    show a.val = b.val * 8192 + a.val; omega
  · refine (labels_stack_apply _ a).trans ?_
    rw [ht]; rfl

def t2 (a1 : IVec S4096 32) : IVec S8192 32 :=
  concatenate S8192 0 [⟨S4096, a1⟩, ⟨S4096, a1⟩] concatenates_S4096_S4096_S8192_d0

def nrm (a1 : IVec S4096 32) : IVec S8192 32 :=
  select (cmpi .slt (t2 a1) (broadcastInDim S8192 ![] bcast_S_S8192 (constantI S_ 32 0#32)))
    (addi (t2 a1) (broadcastInDim S8192 ![] bcast_S_S8192 (constantI S_ 32 100#32))) (t2 a1)

def counts (a1 : IVec S4096 32) : FVec Ideal S100 .f32 :=
  Host.scatterAdd (F := Ideal) scatter_S100_S8192x1_S8192_n_0_0_1
    (broadcastInDim S100 ![] bcast_S_S100 (constant (F := Ideal) S_ .f32 0x00000000#32))
    (broadcastInDim S8192x1 ![0] bcast_S8192_S8192x1_0 (nrm a1))
    (broadcastInDim S8192 ![] bcast_S_S8192 (constant (F := Ideal) S_ .f32 0x3F800000#32))

def inv (a1 : IVec S4096 32) : FVec Ideal S100 .f32 :=
  select (cmpf .ogt (counts a1) (broadcastInDim S100 ![] bcast_S_S100 (constant (F := Ideal) S_ .f32 0x00000000#32)))
    (Host.divf (F := Ideal) (broadcastInDim S100 ![] bcast_S_S100 (constant (F := Ideal) S_ .f32 0x3F800000#32)) (counts a1))
    (broadcastInDim S100 ![] bcast_S_S100 (constant (F := Ideal) S_ .f32 0x00000000#32))

set_option maxHeartbeats 1600000 in
theorem V_v37_raw : (V m c main_v37 : S1x8192.Idx → EReal) =
    shapeCast S1x8192 (Host.gather gather_S100_S8192x1_S8192_n_0_n_n_0_1_1 (inv (m ((c : Thread nD τ).loc main_arg1)))
      (broadcastInDim S8192x1 ![0] bcast_S8192_S8192x1_0 (nrm (m ((c : Thread nD τ).loc main_arg1))))) shapeCasts_S8192_S1x8192 := by
  dsimp only [Hand.V, Hand.V0]
  simp only [Gen.hostOps0, Gen.hostOps0_1, Gen.hostOps0_2, List.flatten_cons, List.flatten_nil, List.append_nil, List.cons_append, List.nil_append]
  after_results
  all_goals rfl

set_option maxHeartbeats 1600000 in
theorem V_v30_raw : (V m c main_v30 : S8192.Idx → EReal) =
    subf (F := Ideal) (Host.gather gather_S100_S8192x1_S8192_n_0_n_n_0_1_1 (counts (m ((c : Thread nD τ).loc main_arg1)))
      (broadcastInDim S8192x1 ![0] bcast_S8192_S8192x1_0 (nrm (m ((c : Thread nD τ).loc main_arg1)))))
      (broadcastInDim S8192 ![] bcast_S_S8192 (constant (F := Ideal) S_ .f32 0x3F800000#32)) := by
  dsimp only [Hand.V, Hand.V0]
  simp only [Gen.hostOps0, Gen.hostOps0_1, Gen.hostOps0_2, List.flatten_cons, List.flatten_nil, List.append_nil, List.cons_append, List.nil_append]
  after_results
  all_goals rfl

set_option maxHeartbeats 1600000 in
theorem V_v38_raw : (V m c main_v38 : S8192x1.Idx → EReal) =
    shapeCast S8192x1 (subf (F := Ideal) (Host.gather gather_S100_S8192x1_S8192_n_0_n_n_0_1_1 (counts (m ((c : Thread nD τ).loc main_arg1)))
      (broadcastInDim S8192x1 ![0] bcast_S8192_S8192x1_0 (nrm (m ((c : Thread nD τ).loc main_arg1)))))
      (broadcastInDim S8192 ![] bcast_S_S8192 (constant (F := Ideal) S_ .f32 0x3F800000#32))) shapeCasts_S8192_S8192x1 := by
  dsimp only [Hand.V, Hand.V0]
  simp only [Gen.hostOps0, Gen.hostOps0_1, Gen.hostOps0_2, List.flatten_cons, List.flatten_nil, List.append_nil, List.cons_append, List.nil_append]
  after_results
  all_goals rfl

section Counts
variable (a1 : IVec S4096 32) (ha1 : a1 = fun i : S4096.Idx => t ⟨(i 0).val, idx1_lt i⟩)

include ha1 in
theorem t2_apply (j : S8192.Idx) : t2 a1 j = Cert.Spec.lab t (j 0) := by
  refine (Cert.LibCounts.concat_labels a1 _ j).trans ?_
  rw [show Cert.LibCounts.labels a1 = t from
    funext fun i => (congrFun ha1 (Shape.Idx.ofFin i)).trans (congrArg t (Fin.ext rfl))]

include ha1 hr in
theorem t2_lt (j : S8192.Idx) : (t2 a1 j).toNat < 100 := by
  rw [t2_apply t a1 ha1 j]; exact Cert.LibCounts.lab_lt t hr (j 0)

include ha1 hr in
theorem nrm_eq : nrm a1 = t2 a1 :=
  Cert.LibCounts.normalise_eq (t2 a1) _ _ (fun _ => rfl) (fun j => lt_trans (t2_lt t hr a1 ha1 j) (by norm_num))

include ha1 hr in
theorem counts_at (j : S8192.Idx) :
    counts a1 (Shape.Idx.ofFin ⟨(t2 a1 j).toNat, t2_lt t hr a1 ha1 j⟩) = ((Cert.Spec.cnt t (j 0) : ℝ) : EReal) := by
  unfold counts
  rw [nrm_eq t hr a1 ha1]
  exact Cert.LibCounts.counts_at_label scatter_S100_S8192x1_S8192_n_0_0_1 rfl rfl rfl rfl bcast_S8192_S8192x1_0 t _ (t2 a1) _
    (fun k => Cert.LibCounts.zeros_apply _ k) (fun k => Cert.LibCounts.ones_apply _ k) (t2_lt t hr a1 ha1) (t2_apply t a1 ha1) j

include ha1 hr in
theorem cg_apply (j : S8192.Idx) :
    Host.gather gather_S100_S8192x1_S8192_n_0_n_n_0_1_1 (counts a1)
      (broadcastInDim S8192x1 ![0] bcast_S8192_S8192x1_0 (nrm a1)) j = ((Cert.Spec.cnt t (j 0) : ℝ) : EReal) := by
  rw [nrm_eq t hr a1 ha1]
  exact (Cert.LibCounts.gather_apply gather_S100_S8192x1_S8192_n_0_n_n_0_1_1 rfl rfl rfl rfl bcast_S8192_S8192x1_0 (by norm_num)
    (counts a1) (t2 a1) j (t2_lt t hr a1 ha1 j)).trans (counts_at t hr a1 ha1 j)

theorem inv_gen (cn : FVec Ideal S100 .f32) (k : S100.Idx) :
    select (cmpf .ogt cn (broadcastInDim S100 ![] bcast_S_S100 (constant (F := Ideal) S_ .f32 0x00000000#32)))
      (Host.divf (F := Ideal) (broadcastInDim S100 ![] bcast_S_S100 (constant (F := Ideal) S_ .f32 0x3F800000#32)) cn)
      (broadcastInDim S100 ![] bcast_S_S100 (constant (F := Ideal) S_ .f32 0x00000000#32)) k
      = Scalar.select (Ideal.cmp .ogt (cn k) 0) (Ideal.div 1 (cn k)) 0 := by
  show Scalar.select (Ideal.cmp .ogt (cn k) (broadcastInDim S100 ![] bcast_S_S100 (constant (F := Ideal) S_ .f32 0x00000000#32) k))
      (Ideal.div (broadcastInDim S100 ![] bcast_S_S100 (constant (F := Ideal) S_ .f32 0x3F800000#32) k) (cn k))
      (broadcastInDim S100 ![] bcast_S_S100 (constant (F := Ideal) S_ .f32 0x00000000#32) k) = _
  rw [Cert.LibCounts.zeros_apply, Cert.LibCounts.ones_apply]

theorem inv_apply (a1 : IVec S4096 32) (k : S100.Idx) :
    inv a1 k = Scalar.select (Ideal.cmp .ogt (counts a1 k) 0) (Ideal.div 1 (counts a1 k)) 0 := by
  unfold inv
  exact inv_gen (counts a1) k

theorem cmp_ogt_pos {r : ℝ} (h : 0 < r) : Ideal.cmp .ogt (r : EReal) 0 = 1#1 := by
  have h' : (0 : EReal) < (r : EReal) := EReal.coe_pos.2 h
  simp [Ideal.cmp, h']

set_option maxHeartbeats 400000 in
include ha1 hr in
theorem w_apply (j : S8192.Idx) :
    Host.gather gather_S100_S8192x1_S8192_n_0_n_n_0_1_1 (inv a1)
      (broadcastInDim S8192x1 ![0] bcast_S8192_S8192x1_0 (nrm a1)) j = ((1 / Cert.Spec.cnt t (j 0) : ℝ) : EReal) := by
  rw [nrm_eq t hr a1 ha1]
  refine (Cert.LibCounts.gather_apply gather_S100_S8192x1_S8192_n_0_n_n_0_1_1 rfl rfl rfl rfl bcast_S8192_S8192x1_0 (by norm_num)
    (inv a1) (t2 a1) j (t2_lt t hr a1 ha1 j)).trans ?_
  have hpos : (0 : ℝ) < Cert.Spec.cnt t (j 0) := Cert.LibCounts.cnt_pos t (j 0)
  refine (inv_apply a1 _).trans ?_
  rw [counts_at t hr a1 ha1 j, cmp_ogt_pos hpos, select_one, Ideal.div_coe hpos.ne', one_mul]

include ha1 hr in
theorem rowcnt_apply (j : S8192.Idx) :
    subf (F := Ideal) (Host.gather gather_S100_S8192x1_S8192_n_0_n_n_0_1_1 (counts a1)
      (broadcastInDim S8192x1 ![0] bcast_S8192_S8192x1_0 (nrm a1)))
      (broadcastInDim S8192 ![] bcast_S_S8192 (constant (F := Ideal) S_ .f32 0x3F800000#32)) j
      = ((Cert.Spec.cnt t (j 0) - 1 : ℝ) : EReal) := by
  refine (subf_apply _ _ j).trans ?_
  rw [cg_apply t hr a1 ha1 j, Cert.LibCounts.ones_apply, EReal.coe_sub, EReal.coe_one]

end Counts

include ht hr in
theorem V_v37_apply (b : Fin 1) (a : Fin 8192) :
    (V m c main_v37 : S1x8192.Idx → EReal) (ix2 b a) = ((1 / Cert.Spec.cnt t a : ℝ) : EReal) := by
  refine (congrFun (V_v37_raw m c) (ix2 b a)).trans ?_
  refine (shapeCast_apply _ _ (ix2 b a) (ix1 a) ?_).trans ?_
  · rw [Shape.rowMajor_val_one, Shape.rowMajor_val_two]
    show a.val = b.val * 8192 + a.val; omega
  · exact w_apply t hr _ ht (ix1 a)

include ht hr in
theorem V_v30_apply (a : Fin 8192) :
    (V m c main_v30 : S8192.Idx → EReal) (ix1 a) = ((Cert.Spec.cnt t a - 1 : ℝ) : EReal) := by
  exact (congrFun (V_v30_raw m c) (ix1 a)).trans (rowcnt_apply t hr _ ht (ix1 a))

include ht hr in
theorem V_v38_apply (a : Fin 8192) (b : Fin 1) :
    (V m c main_v38 : S8192x1.Idx → EReal) (ix2 a b) = ((Cert.Spec.cnt t a - 1 : ℝ) : EReal) := by
  refine (congrFun (V_v38_raw m c) (ix2 a b)).trans ?_
  refine (shapeCast_apply _ _ (ix2 a b) (ix1 a) ?_).trans ?_
  · rw [Shape.rowMajor_val_one, Shape.rowMajor_val_two]
    show a.val = a.val * 1 + b.val; omega
  · exact rowcnt_apply t hr _ ht (ix1 a)

include ht hr in
theorem V_v30 : (V m c main_v30 : S8192.Idx → EReal)
    = fun j : S8192.Idx => ((Cert.Spec.cnt t ⟨(j 0).val, idx1_lt j⟩ - 1 : ℝ) : EReal) := by
  funext j
  rw [eq_ix1 j]
  exact V_v30_apply m c t hr ht (j 0)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_rank2 (f : Fin 8192 → ℝ) :
    ∑ i : S8192x1.Idx, ((f ⟨(i 0).val, idx2_lt0 i⟩ : ℝ) : EReal) = ((∑ a, f a : ℝ) : EReal) := by
  rw [coe_sum, sum_idx2]
  refine Finset.sum_congr rfl fun a _ => ?_
  rw [Fintype.sum_unique]

theorem sum_rank1 (f : Fin 8192 → ℝ) :
    ∑ i : S8192.Idx, ((f ⟨(i 0).val, idx1_lt i⟩ : ℝ) : EReal) = ((∑ a, f a : ℝ) : EReal) := by
  rw [coe_sum]
  exact Equiv.sum_comp (idxEquiv1 (n := 8192)) (fun a => ((f a : ℝ) : EReal))

set_option maxHeartbeats 400000 in
theorem tail_raw (W : Valuation τ sig (Elt Ideal)) :
    (StableHlo.after (Gen.hostOps1 (F := Ideal)) W (Proc.devRef .tc main_v43) : S_.Idx → EReal)
    = Host.divf (F := Ideal)
        (Host.negf (F := Ideal) (Host.reduceAdd (F := Ideal) (W (Proc.devRef .tc main_v39) : S8192x1.Idx → EReal) (constant (F := Ideal) S_ .f32 0x00000000#32) reducesTo_S8192x1_S_d0_1 h_S_))
        (Host.reduceAdd (F := Ideal) (W (Proc.devRef .tc main_v30) : S8192.Idx → EReal) (constant (F := Ideal) S_ .f32 0x00000000#32) reducesTo_S8192_S_d0 h_S_) := by
  show StableHlo.after (Gen.hostOps1 (F := Ideal)) W (Proc.devRef .tc main_v43) = _
  after_results

theorem hostDivf_apply {s : Shape} (f g : FVec Ideal s .f32) (i : s.Idx) : Host.divf (F := Ideal) f g i = Ideal.div (f i) (g i) := rfl
theorem hostNegf_apply {s : Shape} (f : FVec Ideal s .f32) (i : s.Idx) : Host.negf (F := Ideal) f i = -(f i) := rfl
theorem reduceAdd_total_apply {s : Shape} {axes : List (Fin s.rank)} (v : FVec Ideal s .f32) (h : s.ReducesTo axes S_) (i : S_.Idx) :
    Host.reduceAdd (F := Ideal) v (constant (F := Ideal) S_ .f32 0x00000000#32) h h_S_ i = ∑ j : s.Idx, v j := by
  refine (Ideal.hostReduceAdd_total h (fun b => b.elim0) v _ i).trans ?_
  rw [show (constant (F := Ideal) S_ .f32 0x00000000#32 (Shape.Idx.first h_S_) : EReal) = 0 from Ideal.ofBits_zero_f32, zero_add]

theorem tail_value (out : S8192x1.Idx → EReal)
    (hout : out = fun j : S8192x1.Idx => ((Cert.Spec.outK x t ⟨(j 0).val, idx2_lt0 j⟩ : ℝ) : EReal))
    (W : Valuation τ sig (Elt Ideal))
    (h39 : (W (Proc.devRef .tc main_v39) : S8192x1.Idx → EReal) = out)
    (h30 : (W (Proc.devRef .tc main_v30) : S8192.Idx → EReal) = fun j : S8192.Idx => ((Cert.Spec.cnt t ⟨(j 0).val, idx1_lt j⟩ - 1 : ℝ) : EReal))
    (hden : (∑ i, (Cert.Spec.cnt t i - 1)) ≠ 0) :
    (StableHlo.after (Gen.hostOps1 (F := Ideal)) W (Proc.devRef .tc main_v43) : S_.Idx → EReal)
      = fun _ => ((Cert.Spec.lossK x t : ℝ) : EReal) := by
  rw [tail_raw, h39, h30, hout]
  funext i
  refine (hostDivf_apply _ _ i).trans ?_
  rw [hostNegf_apply, reduceAdd_total_apply, reduceAdd_total_apply]
  refine (congrArg₂ (fun u v : EReal => Ideal.div (-u) v) (sum_rank2 (fun a => Cert.Spec.outK x t a))
    (sum_rank1 (fun a => Cert.Spec.cnt t a - 1))).trans ?_
  show Ideal.div (-((∑ a, Cert.Spec.outK x t a : ℝ) : EReal)) ((∑ a, (Cert.Spec.cnt t a - 1) : ℝ) : EReal) = _
  rw [Ideal.div_coe hden, ← EReal.coe_neg, ← EReal.coe_mul]
  unfold Cert.Spec.lossK
  rw [mul_one_div]

end Cert.KernelIdeal.HandHost
end
-- ==== Proof.KI.Blocks.lean ====
import proofs.«416192_j3616362463447_2_alg».proof.Proof.KI.Entry
import proofs.«416192_j3616362463447_2_alg».proof.Proof.Spec
import Idealize.ShloMosaic.Lib.ValueIdx
import Idealize.ShloMosaic.Lib.Pipeline.FrameBody

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ)

def rowOf (r : ℕ) (p : Fin 512) : Fin 8192 := ⟨(512 * r + p.val) % 8192, Nat.mod_lt _ (by norm_num)⟩

def colOf (b : ℕ) (q : Fin 2048) : Fin 8192 := ⟨(2048 * b + q.val) % 8192, Nat.mod_lt _ (by norm_num)⟩

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = 0 ∧ win0_3.index t 1 = t.val % 4 :=
  (by decide +kernel : ∀ t : Fin grid0.N, win0_3.index t 0 = 0 ∧ win0_3.index t 1 = t.val % 4)
theorem idx4 : ∀ t : Fin cfg0.N, win0_4.index t 0 = 0 ∧ win0_4.index t 1 = t.val % 4 :=
  (by decide +kernel : ∀ t : Fin grid0.N, win0_4.index t 0 = 0 ∧ win0_4.index t 1 = t.val % 4)
theorem idx5 : ∀ t : Fin cfg0.N, win0_5.index t 0 = t.val / 4 ∧ win0_5.index t 1 = 0 :=
  (by decide +kernel : ∀ t : Fin grid0.N, win0_5.index t 0 = t.val / 4 ∧ win0_5.index t 1 = 0)
theorem idx6 : ∀ t : Fin cfg0.N, win0_6.index t 0 = t.val / 4 ∧ win0_6.index t 1 = 0 :=
  (by decide +kernel : ∀ t : Fin grid0.N, win0_6.index t 0 = t.val / 4 ∧ win0_6.index t 1 = 0)
theorem coords_eq : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

theorem lt64 (t : Fin cfg0.N) : t.val < 64 := lt_of_lt_of_eq t.isLt N_0

theorem blk0_apply (c : Dev nD) (t : Fin cfg0.N) (p : Fin 512) (k : Fin 256) :
    (iblk m c 0 t : Vec F S512x256 .bf16) (ix2 p k)
      = (V m c main_v34 : S8192x256.Idx → Elt F .bf16) (ix2 (rowOf (t.val / 4) p) k) := by
  have ht := lt64 t
  unfold iblk
  rw [View.read_apply]
  show V m c main_v34 _ = V m c main_v34 _
  refine congrArg (V m c main_v34) (funext fun a => Fin.ext ?_)
  match a with
  | ⟨0, _⟩ =>
    show win0_0.index t 0 * 512 + 1 * p.val = (512 * (t.val / 4) + p.val) % 8192
    rw [(idx0 t).1]; have := p.isLt; omega
  | ⟨1, _⟩ =>
    show win0_0.index t 1 * 256 + 1 * k.val = k.val
    rw [(idx0 t).2]; omega

theorem blk1_apply (c : Dev nD) (t : Fin cfg0.N) (a : Fin 8192) (k : Fin 256) :
    (iblk m c 1 t : Vec F S8192x256 .bf16) (ix2 a k) = (V m c main_v34 : S8192x256.Idx → Elt F .bf16) (ix2 a k) := by
  unfold iblk
  rw [View.read_apply]
  show V m c main_v34 _ = V m c main_v34 _
  refine congrArg (V m c main_v34) (funext fun b => Fin.ext ?_)
  match b with
  | ⟨0, _⟩ =>
    show win0_1.index t 0 * 8192 + 1 * a.val = a.val
    rw [(idx1 t).1]; omega
  | ⟨1, _⟩ =>
    show win0_1.index t 1 * 256 + 1 * k.val = k.val
    rw [(idx1 t).2]; omega

theorem blk2_apply (c : Dev nD) (t : Fin cfg0.N) (p : Fin 512) (u : Fin 1) :
    (iblk m c 2 t : Vec F S512x1 .i32) (ix2 p u) = (V m c main_v35 : S8192x1.Idx → BitVec 32) (ix2 (rowOf (t.val / 4) p) u) := by
  have ht := lt64 t
  unfold iblk
  rw [View.read_apply]
  show V m c main_v35 _ = V m c main_v35 _
  refine congrArg (V m c main_v35) (funext fun a => Fin.ext ?_)
  match a with
  | ⟨0, _⟩ =>
    show win0_2.index t 0 * 512 + 1 * p.val = (512 * (t.val / 4) + p.val) % 8192
    rw [(idx2 t).1]; have := p.isLt; omega
  | ⟨1, _⟩ =>
    show win0_2.index t 1 * 1 + 1 * u.val = u.val
    rw [(idx2 t).2]; omega

theorem blk3_apply (c : Dev nD) (t : Fin cfg0.N) (u : Fin 1) (q : Fin 2048) :
    (iblk m c 3 t : Vec F S1x2048 .i32) (ix2 u q) = (V m c main_v36 : S1x8192.Idx → BitVec 32) (ix2 u (colOf (t.val % 4) q)) := by
  unfold iblk
  rw [View.read_apply]
  show V m c main_v36 _ = V m c main_v36 _
  refine congrArg (V m c main_v36) (funext fun a => Fin.ext ?_)
  match a with
  | ⟨0, _⟩ =>
    show win0_3.index t 0 * 1 + 1 * u.val = u.val
    rw [(idx3 t).1]; omega
  | ⟨1, _⟩ =>
    show win0_3.index t 1 * 2048 + 1 * q.val = (2048 * (t.val % 4) + q.val) % 8192
    rw [(idx3 t).2]; have := q.isLt; omega

theorem blk4_apply (c : Dev nD) (t : Fin cfg0.N) (u : Fin 1) (q : Fin 2048) :
    (iblk m c 4 t : Vec F S1x2048 .f32) (ix2 u q) = (V m c main_v37 : S1x8192.Idx → Elt F .f32) (ix2 u (colOf (t.val % 4) q)) := by
  unfold iblk
  rw [View.read_apply]
  show V m c main_v37 _ = V m c main_v37 _
  refine congrArg (V m c main_v37) (funext fun a => Fin.ext ?_)
  match a with
  | ⟨0, _⟩ =>
    show win0_4.index t 0 * 1 + 1 * u.val = u.val
    rw [(idx4 t).1]; omega
  | ⟨1, _⟩ =>
    show win0_4.index t 1 * 2048 + 1 * q.val = (2048 * (t.val % 4) + q.val) % 8192
    rw [(idx4 t).2]; have := q.isLt; omega

theorem blk5_apply (c : Dev nD) (t : Fin cfg0.N) (p : Fin 512) (u : Fin 1) :
    (iblk m c 5 t : Vec F S512x1 .f32) (ix2 p u) = (V m c main_v38 : S8192x1.Idx → Elt F .f32) (ix2 (rowOf (t.val / 4) p) u) := by
  have ht := lt64 t
  unfold iblk
  rw [View.read_apply]
  show V m c main_v38 _ = V m c main_v38 _
  refine congrArg (V m c main_v38) (funext fun a => Fin.ext ?_)
  match a with
  | ⟨0, _⟩ =>
    show win0_5.index t 0 * 512 + 1 * p.val = (512 * (t.val / 4) + p.val) % 8192
    rw [(idx5 t).1]; have := p.isLt; omega
  | ⟨1, _⟩ =>
    show win0_5.index t 1 * 1 + 1 * u.val = u.val
    rw [(idx5 t).2]; omega

abbrev colRows (i : grid0.Coords) (x1 : Vec F S8192x256 .bf16) : Vec F S2048x256 .bf16 :=
  View.ld x1 (Rect.unit (s := S8192x256) (k0_off1 i) S2048x256.size (k0_off1_inb i))

theorem colRows_apply (i : grid0.Coords) (x1 : Vec F S8192x256 .bf16) (q : Fin 2048) (k : Fin 256) :
    colRows i x1 (ix2 q k) = x1 (ix2 (colOf (i 1).val q) k) := by
  have h1 : (i 1).val < 4 := (i 1).isLt
  show x1 _ = x1 _
  refine congrArg x1 (funext fun a => Fin.ext ?_)
  match a with
  | ⟨0, _⟩ =>
    show k0_off1 i 0 + 1 * q.val = (2048 * (i 1).val + q.val) % 8192
    rw [k0_off1_eq]
    show 2048 * (i 1).val + 1 * q.val = _
    have := q.isLt; omega
  | ⟨1, _⟩ =>
    show k0_off1 i 1 + 1 * k.val = k.val
    rw [k0_off1_eq]
    show 0 + 1 * k.val = _
    omega

theorem colOf_val (b : ℕ) (hb : b < 4) (q : Fin 2048) : (colOf b q).val = 2048 * b + q.val := by
  show (2048 * b + q.val) % 8192 = _
  have := q.isLt; omega

theorem colOf_injective (b : ℕ) (hb : b < 4) : Function.Injective (colOf b) := by
  intro q q' h
  have h' := congrArg Fin.val h
  rw [colOf_val b hb, colOf_val b hb] at h'
  exact Fin.ext (by omega)

theorem blockCols_eq_image (b : ℕ) (hb : b < 4) : Cert.Spec.blockCols b = Finset.univ.image (colOf b) := by
  ext j
  simp only [Cert.Spec.blockCols, Finset.mem_filter, Finset.mem_univ, true_and, Finset.mem_image]
  constructor
  · rintro ⟨h1, h2⟩
    refine ⟨⟨j.val - 2048 * b, by omega⟩, Fin.ext ?_⟩
    rw [colOf_val b hb]
    show 2048 * b + (j.val - 2048 * b) = j.val
    omega
  · rintro ⟨q, rfl⟩
    rw [colOf_val b hb]
    have := q.isLt
    omega

theorem sum_blockCols (b : ℕ) (hb : b < 4) (f : Fin 8192 → ℝ) :
    ∑ j ∈ Cert.Spec.blockCols b, f j = ∑ q : Fin 2048, f (colOf b q) := by
  rw [blockCols_eq_image b hb, Finset.sum_image (fun q _ q' _ h => colOf_injective b hb h)]

theorem sup'_blockCols (b : ℕ) (hb : b < 4) (f : Fin 8192 → ℝ) :
    (Cert.Spec.blockCols b).sup' (Cert.Spec.blockCols_nonempty b hb) f
      = Finset.univ.sup' Finset.univ_nonempty (fun q : Fin 2048 => f (colOf b q)) := by
  exact (Finset.sup'_congr (Cert.Spec.blockCols_nonempty b hb) (blockCols_eq_image b hb) (fun _ _ => rfl)).trans
    (Finset.sup'_image _ f)

end Cert.KernelIdeal.HandValue

end
-- ==== Proof.KI.Pieces.lean ====
import proofs.«416192_j3616362463447_2_alg».proof.Proof.KI.RunC
import proofs.«416192_j3616362463447_2_alg».proof.Proof.KI.Blocks
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.Sem

variable {F : FTy → Type} [FloatOps F] [Named F]

theorem hz : (![0, 0] : Fin 2 → Nat) = fun _ => 0 := funext fun a => by fin_cases a <;> rfl

section Cases

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S512x1 .i32) (harg4 : arg4.IsWhole) (arg5 : Memref sig .tc .vmem S1x2048 .i32) (harg5 : arg5.IsWhole) (arg6 : Memref sig .tc .vmem S1x2048 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole)
  (x0 : Vec F S512x256 .bf16) (x1 : Vec F S8192x256 .bf16) (x2 : Vec F S512x1 .i32) (x3 : Vec F S1x2048 .i32) (x4 : Vec F S1x2048 .f32) (x5 : Vec F S512x1 .f32)

section A
variable (hc0 : cond0_0 i) (hc1 : ¬cond0_1 i)

set_option maxHeartbeats 400000 in
theorem canonA_0 :
    View.canon (kernelRun0_A c i arg2 harg2 arg3 harg3 arg4 harg4 arg5 harg5 arg6 harg6 arg7 harg7 arg8 harg8 arg9 harg9 arg10 harg10 arg11 harg11 hc0 hc1 x0 x1 x2 x3 x4 x5).2.1 = k0_pay4 (k0_pay12 x0 (colRows i x1)) (k0_pay6 (F := F)) := by
  unfold kernelRun0_A
  dsimp only
  sl_unfold_run_names
  rw [View.canon_cons_unit_zero (S := S512x1) hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonA_1 :
    View.canon (kernelRun0_A c i arg2 harg2 arg3 harg3 arg4 harg4 arg5 harg5 arg6 harg6 arg7 harg7 arg8 harg8 arg9 harg9 arg10 harg10 arg11 harg11 hc0 hc1 x0 x1 x2 x3 x4 x5).2.2.1 = k0_pay2 (k0_pay9 x0 (colRows i x1)) (k0_pay10 (F := F) i) (k0_pay12 x0 (colRows i x1)) (k0_pay6 (F := F)) (k0_pay6 (F := F)) x4 (k0_pay7 (F := F)) := by
  unfold kernelRun0_A
  dsimp only
  sl_unfold_run_names
  rw [View.canon_cons_unit_zero (S := S512x1) hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonA_2 :
    View.canon (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 = k0_pay3 (k0_pay9 x0 (colRows i x1)) (k0_pay11 i x2 x3) (k0_pay8 (F := F)) := by
  unfold kernelRun0_A
  dsimp only
  sl_unfold_run_names
  rw [View.canon_cons_unit_zero (S := S512x1) hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

end A

variable (xs0 : Vec F S512x1 .f32) (xs1 : Vec F S512x1 .f32) (xs2 : Vec F S512x1 .f32)

section B
variable (hc0 : ¬cond0_0 i) (hc1 : ¬cond0_1 i)

set_option maxHeartbeats 400000 in
theorem canonB_0 :
    View.canon (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.1 = k0_pay4 (k0_pay12 x0 (colRows i x1)) xs0 := by
  unfold kernelRun0_B
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonB_1 :
    View.canon (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 = k0_pay2 (k0_pay9 x0 (colRows i x1)) (k0_pay10 (F := F) i) (k0_pay12 x0 (colRows i x1)) xs0 xs0 x4 xs1 := by
  unfold kernelRun0_B
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonB_2 :
    View.canon (kernelRun0_B c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 = k0_pay3 (k0_pay9 x0 (colRows i x1)) (k0_pay11 i x2 x3) xs2 := by
  unfold kernelRun0_B
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

end B

section C
variable (hc0 : ¬cond0_0 i) (hc1 : cond0_1 i)

set_option maxHeartbeats 400000 in
theorem canonC_0 :
    View.canon (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.1 = k0_pay4 (k0_pay12 x0 (colRows i x1)) xs0 := by
  unfold kernelRun0_C
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonC_1 :
    View.canon (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.1 = k0_pay2 (k0_pay9 x0 (colRows i x1)) (k0_pay10 (F := F) i) (k0_pay12 x0 (colRows i x1)) xs0 xs0 x4 xs1 := by
  unfold kernelRun0_C
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonC_2 :
    View.canon (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).2.2.2.1 = k0_pay3 (k0_pay9 x0 (colRows i x1)) (k0_pay11 i x2 x3) xs2 := by
  unfold kernelRun0_C
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

set_option maxHeartbeats 400000 in
theorem canonC_6 :
    View.canon (kernelRun0_C c i arg2 harg2 arg3 harg3 arg4 harg4 arg5 harg5 arg6 harg6 arg7 harg7 arg8 harg8 arg9 harg9 arg10 harg10 arg11 harg11 hc0 hc1 x0 x1 x2 x3 x4 x5 xs0 xs1 xs2).1 = k0_pay5 x5 (k0_pay3 (k0_pay9 x0 (colRows i x1)) (k0_pay11 i x2 x3) xs2) (k0_pay4 (k0_pay12 x0 (colRows i x1)) xs0) (k0_pay2 (k0_pay9 x0 (colRows i x1)) (k0_pay10 (F := F) i) (k0_pay12 x0 (colRows i x1)) xs0 xs0 x4 xs1) := by
  unfold kernelRun0_C
  dsimp only
  sl_unfold_run_names
  rw [View.canon_unit_zero hz]
  simp only [View.readAt_eq_ld, harg2.read_unread, harg3.read_unread, harg4.read_unread, harg5.read_unread, harg6.read_unread, harg7.read_unread, harg9.read_unread, harg10.read_unread, harg11.read_unread, View.ld_unit_zero (S := S512x1) hz, View.ld_unit_zero (S := S512x256) hz, View.ld_unit_zero (S := S1x2048) hz, View.readCov_unit_zero (S := S512x1) _ hz]

end C

end Cases

end Cert.KernelIdeal.HandValue

end
-- ==== Proof.Math.lean ====
import proofs.«416192_j3616362463447_2_alg».proof.Proof.Spec
import Mathlib.Algebra.BigOperators.Ring.Finset
import Mathlib.Algebra.Order.BigOperators.Group.Finset
import Mathlib.Data.Finset.Lattice.Fold
import Mathlib.Tactic.Ring
import Mathlib.Tactic.Linarith

noncomputable section

namespace Cert.Spec

open Finset

variable (x : Fin 4096 → Fin 512 → ℝ) (t : Fin 4096 → BitVec 32)

theorem lgK_eq_lgR (i j : Fin 8192) : lgK x i j = lgR x i j := by
  unfold lgK lgR invTemp temp
  rw [div_div_eq_mul_div]
  ring

theorem mxK_eq_mxR (i : Fin 8192) : mxK x i = mxR x i := by
  unfold mxK mxR
  rw [show lgK x i = lgR x i from funext (lgK_eq_lgR x i)]

theorem zK_eq_zR (i : Fin 8192) : zK x t i = zR x t i := by
  unfold zK zR
  refine Finset.sum_congr rfl fun j _ => ?_
  rw [lgK_eq_lgR, mxK_eq_mxR, mul_one_div]

def other (j : Fin 8192) : Fin 8192 := ⟨(j.val + 4096) % 8192, Nat.mod_lt _ (by norm_num)⟩

theorem other_ne (j : Fin 8192) : j ≠ other j := by
  intro h
  have h' : j.val = (j.val + 4096) % 8192 := congrArg Fin.val h
  have hj := j.isLt
  omega

theorem lab_other (j : Fin 8192) : lab t (other j) = lab t j := by
  unfold lab other
  refine congrArg t (Fin.ext ?_)
  show ((j.val + 4096) % 8192) % 4096 = j.val % 4096
  omega

theorem cnt_ge_two (j : Fin 8192) : (2 : ℝ) ≤ cnt t j := by
  unfold cnt
  have h : 1 < (univ.filter fun i : Fin 8192 => lab t i = lab t j).card := by
    rw [Finset.one_lt_card]
    refine ⟨j, by simp, other j, ?_, other_ne j⟩
    simp [lab_other]
  have h2 : 2 ≤ (univ.filter fun i : Fin 8192 => lab t i = lab t j).card := h
  exact_mod_cast h2

theorem cnt_pos (j : Fin 8192) : 0 < cnt t j := by
  have := cnt_ge_two t j
  linarith

theorem cnt_ne_zero (j : Fin 8192) : cnt t j ≠ 0 := (cnt_pos t j).ne'

theorem cnt_sub_one_pos (j : Fin 8192) : 0 < cnt t j - 1 := by
  have := cnt_ge_two t j
  linarith

theorem sum_same_offd (i : Fin 8192) : ∑ j, same t i j * offd i j = cnt t i - 1 := by
  have h1 : ∀ j, same t i j * offd i j
      = (if lab t j = lab t i then (1 : ℝ) else 0) - (if i = j then (1 : ℝ) else 0) := by
    intro j
    unfold same offd
    by_cases hij : i = j
    · subst hij; simp
    · by_cases hl : lab t i = lab t j
      · simp [hij, hl]
      · have hl' : ¬ lab t j = lab t i := fun h => hl h.symm
        simp [hij, hl, hl']
  rw [Finset.sum_congr rfl fun j _ => h1 j, Finset.sum_sub_distrib, Finset.sum_ite_eq, Finset.sum_boole]
  simp [cnt]

theorem numR_eq : numR x t = ∑ i, outK x t i := by
  unfold numR outK
  refine Finset.sum_congr rfl fun i _ => ?_
  rw [zK_eq_zR, mxK_eq_mxR, ← sum_same_offd t i]
  unfold sK
  simp only [lgK_eq_lgR]
  rw [Finset.mul_sum, Finset.sum_mul, ← Finset.sum_sub_distrib, ← Finset.sum_sub_distrib]
  refine Finset.sum_congr rfl fun j _ => ?_
  ring

theorem denR_eq : denR t = ∑ i, (cnt t i - 1) := by
  unfold denR
  exact Finset.sum_congr rfl fun i _ => sum_same_offd t i

theorem lossK_eq_lossRef : lossK x t = lossRef x t := by
  unfold lossK lossRef
  rw [numR_eq, denR_eq]

theorem term_nonneg (i j : Fin 8192) (m : ℝ) : 0 ≤ Real.exp (lgK x i j - m) * offd i j * (1 / cnt t j) := by
  have hc : 0 ≤ 1 / cnt t j := (one_div_pos.mpr (cnt_pos t j)).le
  have ho : 0 ≤ offd i j := by unfold offd; split_ifs <;> norm_num
  exact mul_nonneg (mul_nonneg (Real.exp_pos _).le ho) hc

theorem term_pos (i j : Fin 8192) (h : i ≠ j) (m : ℝ) :
    0 < Real.exp (lgK x i j - m) * offd i j * (1 / cnt t j) := by
  have hc : 0 < 1 / cnt t j := one_div_pos.mpr (cnt_pos t j)
  have ho : offd i j = 1 := by unfold offd; exact if_neg h
  rw [ho, mul_one]
  exact mul_pos (Real.exp_pos _) hc

theorem zK_pos (i : Fin 8192) : 0 < zK x t i := by
  unfold zK
  exact Finset.sum_pos' (fun j _ => term_nonneg x t i j _)
    ⟨other i, mem_univ _, term_pos x t i _ (other_ne i) _⟩

theorem zR_pos (i : Fin 8192) : 0 < zR x t i := by
  rw [← zK_eq_zR]; exact zK_pos x t i

theorem den_pos : 0 < ∑ i : Fin 8192, (cnt t i - 1) :=
  Finset.sum_pos (fun i _ => cnt_sub_one_pos t i) univ_nonempty

theorem den_ne_zero : ∑ i : Fin 8192, (cnt t i - 1) ≠ 0 := (den_pos t).ne'

theorem denR_ne_zero : denR t ≠ 0 := by
  rw [denR_eq]; exact den_ne_zero t

end Cert.Spec

end
-- ==== Proof.MathSteps.lean ====
import proofs.«416192_j3616362463447_2_alg».proof.Proof.Math

noncomputable section

namespace Cert.Spec

open Finset

variable (x : Fin 4096 → Fin 512 → ℝ) (t : Fin 4096 → BitVec 32)

theorem upToCols_zero : upToCols 0 = blockCols 0 := by
  ext j
  simp [upToCols, blockCols]

theorem upToCols_succ (b : ℕ) : upToCols (b + 1) = upToCols b ∪ blockCols (b + 1) := by
  ext j
  simp only [upToCols, blockCols, mem_union, mem_filter, mem_univ, true_and]
  omega

theorem disjoint_upToCols_blockCols (b : ℕ) : Disjoint (upToCols b) (blockCols (b + 1)) := by
  rw [Finset.disjoint_left]
  intro j h1 h2
  simp only [upToCols, blockCols, mem_filter, mem_univ, true_and] at h1 h2
  omega

theorem upToCols_three : upToCols 3 = univ := by
  ext j
  have hj := j.isLt
  simp only [upToCols, mem_filter, mem_univ, true_and, iff_true]
  omega

theorem mxB_zero (i : Fin 8192) : mxB x 0 i = bmax x 0 (by norm_num) i := by
  unfold mxB bmax
  exact Finset.sup'_congr _ upToCols_zero (fun _ _ => rfl)

theorem sup'_eq_max_of_union {ι : Type} [DecidableEq ι] {s s₁ s₂ : Finset ι} (hs : s = s₁ ∪ s₂)
    (h : s.Nonempty) (h₁ : s₁.Nonempty) (h₂ : s₂.Nonempty) (f : ι → ℝ) :
    s.sup' h f = max (s₁.sup' h₁ f) (s₂.sup' h₂ f) := by
  subst hs
  apply le_antisymm
  · refine Finset.sup'_le _ _ fun j hj => ?_
    rcases Finset.mem_union.mp hj with hj | hj
    · exact le_max_of_le_left (Finset.le_sup' f hj)
    · exact le_max_of_le_right (Finset.le_sup' f hj)
  · refine max_le ?_ ?_
    · exact Finset.sup'_le _ _ fun j hj => Finset.le_sup' f (Finset.mem_union_left _ hj)
    · exact Finset.sup'_le _ _ fun j hj => Finset.le_sup' f (Finset.mem_union_right _ hj)

theorem mxB_succ (b : ℕ) (hb : b + 1 < 4) (i : Fin 8192) :
    mxB x (b + 1) i = max (mxB x b i) (bmax x (b + 1) hb i) :=
  sup'_eq_max_of_union (upToCols_succ b) _ _ _ _

theorem zB_zero (i : Fin 8192) :
    zB x t 0 i = ∑ j ∈ blockCols 0,
      Real.exp (lgK x i j - bmax x 0 (by norm_num) i) * offd i j * (1 / cnt t j) := by
  unfold zB
  rw [mxB_zero, upToCols_zero]

theorem zB_succ (b : ℕ) (_hb : b + 1 < 4) (i : Fin 8192) :
    zB x t (b + 1) i = zB x t b i * Real.exp (mxB x b i - mxB x (b + 1) i)
      + ∑ j ∈ blockCols (b + 1), Real.exp (lgK x i j - mxB x (b + 1) i) * offd i j * (1 / cnt t j) := by
  unfold zB
  rw [upToCols_succ b, Finset.sum_union (disjoint_upToCols_blockCols b), Finset.sum_mul]
  congr 1
  refine Finset.sum_congr rfl fun j _ => ?_
  rw [show lgK x i j - mxB x (b + 1) i = (lgK x i j - mxB x b i) + (mxB x b i - mxB x (b + 1) i) by ring,
    Real.exp_add]
  ring

theorem sB_zero (i : Fin 8192) :
    sB x t 0 i = ∑ j ∈ blockCols 0, same t i j * offd i j * lgK x i j := by
  unfold sB
  rw [upToCols_zero]

theorem sB_succ (b : ℕ) (i : Fin 8192) :
    sB x t (b + 1) i = sB x t b i + ∑ j ∈ blockCols (b + 1), same t i j * offd i j * lgK x i j := by
  unfold sB
  rw [upToCols_succ b, Finset.sum_union (disjoint_upToCols_blockCols b)]

theorem mxB_three (i : Fin 8192) : mxB x 3 i = mxK x i := by
  unfold mxB mxK
  exact Finset.sup'_congr _ upToCols_three (fun _ _ => rfl)

theorem zB_three (i : Fin 8192) : zB x t 3 i = zK x t i := by
  unfold zB zK
  rw [mxB_three, upToCols_three]

theorem sB_three (i : Fin 8192) : sB x t 3 i = sK x t i := by
  unfold sB sK
  rw [upToCols_three]

theorem zB_pos (b : ℕ) (i : Fin 8192) : 0 < zB x t b i := by
  unfold zB
  refine Finset.sum_pos' (fun j _ => term_nonneg x t i j _) ?_
  by_cases hi : i = ⟨0, by norm_num⟩
  · refine ⟨⟨1, by norm_num⟩, ?_, term_pos x t i _ ?_ _⟩
    · simp only [upToCols, mem_filter, mem_univ, true_and]; omega
    · rw [hi]; intro h; exact absurd (congrArg Fin.val h) (by norm_num)
  · exact ⟨⟨0, by norm_num⟩, by simp [upToCols], term_pos x t i _ hi _⟩

end Cert.Spec

end
-- ==== Proof.KI.PayIdx.lean ====
import proofs.«416192_j3616362463447_2_alg».proof.Proof.Gen.KernelIdeal.Skeleton
import proofs.«416192_j3616362463447_2_alg».proof.Proof.Spec
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

theorem named_invTemp :
    Named.named (F := Ideal) κ "inv_temp" (φ := .f32) 0x41200000#32 = ((Cert.Spec.invTemp : ℝ) : EReal) :=
  IdealRules.named_const.ideal_named_scalar _ _ _ _ rfl

theorem lhs_dot_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs_dot_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs_dot_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs_dot_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

theorem pay9_apply (x0 : FVec Ideal S512x256 .bf16) (x1 : FVec Ideal S2048x256 .bf16) (p : Fin 512) (q : Fin 2048) :
    k0_pay9 (F := Ideal) x0 x1 (ix2 p q)
      = (∑ k : Fin 256, x0 (ix2 p k) * x1 (ix2 q k)) * ((Cert.Spec.invTemp : ℝ) : EReal) := by
  unfold k0_pay9
  show (FloatOps.matmul dot_S512x256_S256x2048_S512x2048_1_0_0_1_n_n none
        (shapeCast S512x256 x0 shapeCasts_S512x256_S512x256)
        (transpose S256x2048 [1, 0] (shapeCast S2048x256 x1 shapeCasts_S2048x256_S2048x256) transposes_S2048x256_p1_0_S256x2048)
        (constant S512x2048 .f32 0x00000000#32)) (ix2 p q)
      * Named.named (F := Ideal) κ "inv_temp" (φ := .f32) 0x41200000#32 = _
  rw [named_invTemp, shapeCast_self, shapeCast_self]
  refine congrArg (· * ((Cert.Spec.invTemp : ℝ) : EReal)) ?_
  rw [Ideal.matmul_constant_zero_apply, ← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 p q) ((contrEquiv1 dot_S512x256_S256x2048_S512x2048_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S512x256_S256x2048_S512x2048_1_0_0_1_n_n.rhsIdx (ix2 p q) ((contrEquiv1 dot_S512x256_S256x2048_S512x2048_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er, transpose_ix2_apply]

section Generic
variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Generic

theorem word_affine (a c p : ℕ) :
    IntOp.addi (Scalar.muli (BitVec.ofNat 32 a) (BitVec.ofNat 32 c)) (BitVec.ofNat 32 p) = BitVec.ofNat 32 (c * a + p) := by
  unfold IntOp.addi Scalar.muli IntOp.muli
  rw [← BitVec.ofNat_mul, ← BitVec.ofNat_add, Nat.mul_comm]

theorem cmpi_eq_ofNat (m n : ℕ) (hm : m < 2 ^ 32) (hn : n < 2 ^ 32) :
    IntOp.cmpi .eq (BitVec.ofNat 32 m) (BitVec.ofNat 32 n) = if m = n then 1#1 else 0#1 := by
  unfold IntOp.cmpi
  by_cases h : m = n
  · subst h; simp
  · rw [if_neg h]
    have hne : BitVec.ofNat 32 m ≠ BitVec.ofNat 32 n := by
      intro e
      apply h
      have := congrArg BitVec.toNat e
      rw [BitVec.toNat_ofNat, BitVec.toNat_ofNat, Nat.mod_eq_of_lt hm, Nat.mod_eq_of_lt hn] at this
      exact this
    rw [beq_eq_false_iff_ne.mpr hne]; rfl

theorem cmpi_eq_words (x y : BitVec 32) : IntOp.cmpi .eq x y = if x = y then 1#1 else 0#1 := by
  unfold IntOp.cmpi
  by_cases h : x = y
  · subst h; simp
  · rw [if_neg h, beq_eq_false_iff_ne.mpr h]; rfl

theorem ofBits_one_f32 : Ideal.ofBits .f32 0x3F800000#32 = 1 := IdealRules.sign_bit.ideal_onePat .f32
theorem ofBits_negInf_f32 : Ideal.ofBits .f32 0xFF800000#32 = ⊥ := by simp [Ideal.ofBits, Ideal.ieee]

theorem pay10_apply (i : grid0.Coords) (p : Fin 512) (q : Fin 2048) :
    k0_pay10 (F := Ideal) i (ix2 p q)
      = if 512 * (i 0).val + p.val = 2048 * (i 1).val + q.val then (0 : EReal) else 1 := by
  have h0 : (i 0).val < 16 := (i 0).isLt
  have h1 : (i 1).val < 4 := (i 1).isLt
  unfold k0_pay10
  show Scalar.select (IntOp.cmpi .eq
        (IntOp.addi (Scalar.muli (BitVec.ofNat 32 (i 0).val) 512#32) (iota .tc S512x2048 32 [0] iota_S512x2048_d0_w32 (ix2 p q)))
        (IntOp.addi (Scalar.muli (BitVec.ofNat 32 (i 1).val) 2048#32) (iota .tc S512x2048 32 [1] iota_S512x2048_d1_w32 (ix2 p q))))
      (Ideal.ofBits .f32 0x00000000#32) (Ideal.ofBits .f32 0x3F800000#32) = _
  rw [iota_single_apply, iota_single_apply]
  show Scalar.select (IntOp.cmpi .eq
        (IntOp.addi (Scalar.muli (BitVec.ofNat 32 (i 0).val) (BitVec.ofNat 32 512)) (BitVec.ofNat 32 p.val))
        (IntOp.addi (Scalar.muli (BitVec.ofNat 32 (i 1).val) (BitVec.ofNat 32 2048)) (BitVec.ofNat 32 q.val)))
      (Ideal.ofBits .f32 0x00000000#32) (Ideal.ofBits .f32 0x3F800000#32) = _
  rw [word_affine, word_affine, cmpi_eq_ofNat _ _ (by have := p.isLt; omega) (by have := q.isLt; omega),
    Ideal.ofBits_zero_f32, ofBits_one_f32]
  unfold Scalar.select
  by_cases h : 512 * (i 0).val + p.val = 2048 * (i 1).val + q.val
  · rw [if_pos h, if_pos h]; exact if_pos (by decide)
  · rw [if_neg h, if_neg h]; exact if_neg (by decide)

theorem pay11_apply (i : grid0.Coords) (v26 : IVec S512x1 32) (v28 : IVec S1x2048 32) (p : Fin 512) (q : Fin 2048) :
    k0_pay11 (F := Ideal) i v26 v28 (ix2 p q)
      = (if v26 (ix2 p (0 : Fin 1)) = v28 (ix2 (0 : Fin 1) q) then (1 : EReal) else 0) * k0_pay10 (F := Ideal) i (ix2 p q) := by
  unfold k0_pay11
  show ((((IntOp.cmpi .eq
          (broadcastTo S512x2048 (shapeCast S512x1 v26 shapeCasts_S512x1_S512x1) broadcasts_S512x1_S512x2048 (ix2 p q))
          (broadcastTo S512x2048 (shapeCast S1x2048 v28 shapeCasts_S1x2048_S1x2048) broadcasts_S1x2048_S512x2048 (ix2 p q))).setWidth 32).toInt : ℝ) : EReal)
      * k0_pay10 (F := Ideal) i (ix2 p q) = _
  rw [shapeCast_self, shapeCast_self, broadcastTo_a1_ab_apply, broadcastTo_1b_ab_apply, cmpi_eq_words]
  refine congrArg (· * k0_pay10 (F := Ideal) i (ix2 p q)) ?_
  by_cases h : v26 (ix2 p (0 : Fin 1)) = v28 (ix2 (0 : Fin 1) q)
  · rw [if_pos h, if_pos h]
    show (((BitVec.setWidth 32 1#1).toInt : ℝ) : EReal) = 1
    norm_num [show (BitVec.setWidth 32 1#1).toInt = 1 by decide]
  · rw [if_neg h, if_neg h]
    show (((BitVec.setWidth 32 0#1).toInt : ℝ) : EReal) = 0
    norm_num [show (BitVec.setWidth 32 0#1).toInt = 0 by decide]

theorem pay6_apply (j : S512x1.Idx) : k0_pay6 (F := Ideal) j = ⊥ := by
  unfold k0_pay6
  rw [shapeCast_self]
  exact ofBits_negInf_f32
theorem pay7_apply (j : S512x1.Idx) : k0_pay7 (F := Ideal) j = 0 := by
  unfold k0_pay7
  rw [shapeCast_self]
  exact Ideal.ofBits_zero_f32
theorem pay8_apply (j : S512x1.Idx) : k0_pay8 (F := Ideal) j = 0 := by
  unfold k0_pay8
  rw [shapeCast_self]
  exact Ideal.ofBits_zero_f32

theorem lift_row (p : Fin 512) (k : Fin 2048) :
    reduces_S512x2048_S512.lift (ix1 p) k = (ix2 p k : S512x2048.Idx) := by
  funext a
  refine Fin.ext ?_
  match a with
  | ⟨0, _⟩ => rfl
  | ⟨1, _⟩ => rfl

theorem pay12_apply (x0 : FVec Ideal S512x256 .bf16) (x1 : FVec Ideal S2048x256 .bf16) (p : Fin 512) (u : Fin 1) :
    k0_pay12 (F := Ideal) x0 x1 (ix2 p u)
      = (Finset.univ : Finset (Fin 2048)).fold max (⊥ : EReal) (fun q => k0_pay9 (F := Ideal) x0 x1 (ix2 p q)) := by
  unfold k0_pay12
  refine (shapeCast_a_a1_apply _ shapeCasts_S512_S512x1 p u).trans ?_
  refine (Ideal.multiReduction_maximumf_single (k0_pay9 (F := Ideal) x0 x1) 0xFF800000#32 reduces_S512x2048_S512 (.inl rfl) rfl (ix1 p)).trans ?_
  show (Finset.univ : Finset (Fin 2048)).fold max (Ideal.ofBits .f32 0xFF800000#32) _ = _
  rw [ofBits_negInf_f32]
  refine Finset.fold_congr fun (q : Fin 2048) _ => ?_
  show k0_pay9 (F := Ideal) x0 x1 (reduces_S512x2048_S512.lift (ix1 p) q) = _
  rw [lift_row]

theorem pay4_apply (v37 : FVec Ideal S512x1 .f32) (v38 : FVec Ideal S512x1 .f32) (j : S512x1.Idx) :
    k0_pay4 (F := Ideal) v37 v38 j = max (v38 j) (v37 j) := by
  unfold k0_pay4
  rw [shapeCast_self]
  rfl

theorem pay2_apply (v13 v25 : FVec Ideal S512x2048 .f32) (v37 v38 v40 : FVec Ideal S512x1 .f32)
    (v43 : FVec Ideal S1x2048 .f32) (v51 : FVec Ideal S512x1 .f32) (p : Fin 512) (u : Fin 1) :
    k0_pay2 (F := Ideal) v13 v25 v37 v38 v40 v43 v51 (ix2 p u)
      = v51 (ix2 p u) * Ideal.exp (v40 (ix2 p u) - max (v38 (ix2 p u)) (v37 (ix2 p u)))
        + ∑ q : Fin 2048, Ideal.exp (v13 (ix2 p q) - max (v38 (ix2 p (0 : Fin 1))) (v37 (ix2 p (0 : Fin 1))))
            * v25 (ix2 p q) * v43 (ix2 (0 : Fin 1) q) := by
  unfold k0_pay2
  rw [shapeCast_self]
  show v51 (ix2 p u) * Ideal.exp (v40 (ix2 p u) - k0_pay1 (F := Ideal) v37 v38 (ix2 p u))
      + shapeCast S512x1 (multiReduction (F := Ideal) .add [1] S512 _ 0x00000000#32 reduces_S512x2048_S512 (.inl rfl) rfl) shapeCasts_S512_S512x1 (ix2 p u) = _
  refine congrArg₂ (· + ·) rfl ?_
  refine (shapeCast_a_a1_apply _ shapeCasts_S512_S512x1 p u).trans ?_
  refine (Ideal.multiReduction_add_single _ 0x00000000#32 reduces_S512x2048_S512 (.inl rfl) rfl (ix1 p)).trans ?_
  refine Finset.sum_congr rfl fun (q : Fin 2048) _ => ?_
  rw [lift_row]
  show Ideal.exp (v13 (ix2 p q) - broadcastTo S512x2048 (k0_pay1 (F := Ideal) v37 v38) broadcasts_S512x1_S512x2048 (ix2 p q)) * v25 (ix2 p q)
      * broadcastTo S512x2048 (shapeCast S1x2048 v43 shapeCasts_S1x2048_S1x2048) broadcasts_S1x2048_S512x2048 (ix2 p q) = _
  rw [shapeCast_self, broadcastTo_a1_ab_apply, broadcastTo_1b_ab_apply]
  rfl

theorem pay3_apply (v13 v35 : FVec Ideal S512x2048 .f32) (v59 : FVec Ideal S512x1 .f32) (p : Fin 512) (u : Fin 1) :
    k0_pay3 (F := Ideal) v13 v35 v59 (ix2 p u) = v59 (ix2 p u) + ∑ q : Fin 2048, v35 (ix2 p q) * v13 (ix2 p q) := by
  unfold k0_pay3
  rw [shapeCast_self]
  show v59 (ix2 p u)
      + shapeCast S512x1 (multiReduction (F := Ideal) .add [1] S512 _ 0x00000000#32 reduces_S512x2048_S512 (.inl rfl) rfl) shapeCasts_S512_S512x1 (ix2 p u) = _
  refine congrArg₂ (· + ·) rfl ?_
  refine (shapeCast_a_a1_apply _ shapeCasts_S512_S512x1 p u).trans ?_
  refine (Ideal.multiReduction_add_single _ 0x00000000#32 reduces_S512x2048_S512 (.inl rfl) rfl (ix1 p)).trans ?_
  refine Finset.sum_congr rfl fun (q : Fin 2048) _ => ?_
  rw [lift_row]
  rfl

theorem pay5_apply (v73 v75 v76 v79 : FVec Ideal S512x1 .f32) (j : S512x1.Idx) :
    k0_pay5 (F := Ideal) v73 v75 v76 v79 j = v75 j - v76 j * v73 j - v73 j * Ideal.log (v79 j) := by
  unfold k0_pay5
  rw [shapeCast_self]
  rfl

end Cert.KernelIdeal.HandValue

end
-- ==== Proof.KI.Step.lean ====
import proofs.«416192_j3616362463447_2_alg».proof.Proof.KI.PayIdx

noncomputable section

namespace Cert.KernelIdeal.HandValue

open Cert.KernelIdeal Cert.KernelIdeal.Gen
open Idealize.ShloMosaic Idealize.ShloMosaic.ValueIdx

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem fold_max_coe {ι : Type*} (s : Finset ι) (hs : s.Nonempty) (f : ι → ℝ) :
    s.fold max (⊥ : EReal) (fun q => (f q : EReal)) = ((s.sup' hs f : ℝ) : EReal) := by
  induction hs using Finset.Nonempty.cons_induction with
  | singleton a =>
    rw [Finset.fold_singleton, Finset.sup'_singleton]
    exact max_eq_left bot_le
  | cons a s ha hs ih =>
    rw [Finset.fold_cons, ih, Finset.sup'_cons hs, ← coe_max]

theorem coe_offd (a b : Fin 8192) : (if a = b then (0 : EReal) else 1) = ((Spec.offd a b : ℝ) : EReal) := by
  unfold Spec.offd
  split <;> simp

theorem coe_same (t : Fin 4096 → BitVec 32) (a b : Fin 8192) :
    (if Spec.lab t a = Spec.lab t b then (1 : EReal) else 0) = ((Spec.same t a b : ℝ) : EReal) := by
  unfold Spec.same
  split <;> simp

section Step

variable (x : Fin 4096 → Fin 512 → ℝ) (t : Fin 4096 → BitVec 32)
variable (R : Fin 512 → Fin 8192) (C : Fin 2048 → Fin 8192)
variable (fr : FVec Ideal S512x256 .bf16) (fc : FVec Ideal S2048x256 .bf16)

def blockMax (i : Fin 8192) : ℝ := Finset.univ.sup' Finset.univ_nonempty (fun q : Fin 2048 => Spec.lgK x i (C q))

theorem lg_entry (hfr : ∀ p k, fr (ix2 p k) = ((Spec.feat x (R p) k : ℝ) : EReal))
    (hfc : ∀ q k, fc (ix2 q k) = ((Spec.feat x (C q) k : ℝ) : EReal)) (p : Fin 512) (q : Fin 2048) :
    k0_pay9 (F := Ideal) fr fc (ix2 p q) = ((Spec.lgK x (R p) (C q) : ℝ) : EReal) := by
  rw [pay9_apply]
  unfold Spec.lgK Spec.dot
  rw [EReal.coe_mul, coe_sum]
  refine congrArg (· * ((Spec.invTemp : ℝ) : EReal)) ?_
  refine Finset.sum_congr rfl fun k _ => ?_
  rw [hfr, hfc, EReal.coe_mul]

theorem bm_entry (hfr : ∀ p k, fr (ix2 p k) = ((Spec.feat x (R p) k : ℝ) : EReal))
    (hfc : ∀ q k, fc (ix2 q k) = ((Spec.feat x (C q) k : ℝ) : EReal)) (p : Fin 512) (u : Fin 1) :
    k0_pay12 (F := Ideal) fr fc (ix2 p u) = ((blockMax x C (R p) : ℝ) : EReal) := by
  rw [pay12_apply]
  unfold blockMax
  rw [← fold_max_coe]
  refine Finset.fold_congr fun q _ => ?_
  exact lg_entry x R C fr fc hfr hfc p q

variable (i : grid0.Coords) (lr : IVec S512x1 32) (lc : IVec S1x2048 32)
variable (w : FVec Ideal S1x2048 .f32) (rc : FVec Ideal S512x1 .f32)
variable (m0 z0 s0 : FVec Ideal S512x1 .f32)

theorem offd_entry (hdiag : ∀ p q, (512 * (i 0).val + p.val = 2048 * (i 1).val + q.val) ↔ R p = C q)
    (p : Fin 512) (q : Fin 2048) :
    k0_pay10 (F := Ideal) i (ix2 p q) = ((Spec.offd (R p) (C q) : ℝ) : EReal) := by
  rw [pay10_apply, ← coe_offd]
  by_cases h : R p = C q
  · rw [if_pos h, if_pos ((hdiag p q).mpr h)]
  · rw [if_neg h, if_neg (fun h' => h ((hdiag p q).mp h'))]

theorem mask_entry (hdiag : ∀ p q, (512 * (i 0).val + p.val = 2048 * (i 1).val + q.val) ↔ R p = C q)
    (hlr : ∀ p, lr (ix2 p (0 : Fin 1)) = Spec.lab t (R p)) (hlc : ∀ q, lc (ix2 (0 : Fin 1) q) = Spec.lab t (C q))
    (p : Fin 512) (q : Fin 2048) :
    k0_pay11 (F := Ideal) i lr lc (ix2 p q) = ((Spec.same t (R p) (C q) * Spec.offd (R p) (C q) : ℝ) : EReal) := by
  rw [pay11_apply, offd_entry R C i hdiag, hlr, hlc, coe_same, EReal.coe_mul]

theorem max_entry (hfr : ∀ p k, fr (ix2 p k) = ((Spec.feat x (R p) k : ℝ) : EReal))
    (hfc : ∀ q k, fc (ix2 q k) = ((Spec.feat x (C q) k : ℝ) : EReal)) (p : Fin 512) (u : Fin 1) :
    k0_pay4 (F := Ideal) (k0_pay12 (F := Ideal) fr fc) m0 (ix2 p u) = max (m0 (ix2 p u)) ((blockMax x C (R p) : ℝ) : EReal) := by
  rw [pay4_apply, bm_entry x R C fr fc hfr hfc]

theorem s_entry (hfr : ∀ p k, fr (ix2 p k) = ((Spec.feat x (R p) k : ℝ) : EReal))
    (hfc : ∀ q k, fc (ix2 q k) = ((Spec.feat x (C q) k : ℝ) : EReal))
    (hdiag : ∀ p q, (512 * (i 0).val + p.val = 2048 * (i 1).val + q.val) ↔ R p = C q)
    (hlr : ∀ p, lr (ix2 p (0 : Fin 1)) = Spec.lab t (R p)) (hlc : ∀ q, lc (ix2 (0 : Fin 1) q) = Spec.lab t (C q))
    (p : Fin 512) (u : Fin 1) (S : ℝ) (hS : s0 (ix2 p u) = (S : EReal)) :
    k0_pay3 (F := Ideal) (k0_pay9 (F := Ideal) fr fc) (k0_pay11 (F := Ideal) i lr lc) s0 (ix2 p u)
      = ((S + ∑ q : Fin 2048, Spec.same t (R p) (C q) * Spec.offd (R p) (C q) * Spec.lgK x (R p) (C q) : ℝ) : EReal) := by
  rw [pay3_apply, hS, EReal.coe_add, coe_sum]
  refine congrArg (fun z => (S : EReal) + z) (Finset.sum_congr rfl fun q _ => ?_)
  rw [mask_entry t R C i lr lc hdiag hlr hlc, lg_entry x R C fr fc hfr hfc, ← EReal.coe_mul]

theorem z_entry (hfr : ∀ p k, fr (ix2 p k) = ((Spec.feat x (R p) k : ℝ) : EReal))
    (hfc : ∀ q k, fc (ix2 q k) = ((Spec.feat x (C q) k : ℝ) : EReal))
    (hdiag : ∀ p q, (512 * (i 0).val + p.val = 2048 * (i 1).val + q.val) ↔ R p = C q)
    (hw : ∀ q, w (ix2 (0 : Fin 1) q) = ((1 / Spec.cnt t (C q) : ℝ) : EReal))
    (p : Fin 512) (M Z : ℝ) (hM : m0 (ix2 p (0 : Fin 1)) = (M : EReal)) (hZ : z0 (ix2 p (0 : Fin 1)) = (Z : EReal)) :
    k0_pay2 (F := Ideal) (k0_pay9 (F := Ideal) fr fc) (k0_pay10 (F := Ideal) i) (k0_pay12 (F := Ideal) fr fc) m0 m0 w z0 (ix2 p (0 : Fin 1))
      = ((Z * Real.exp (M - max M (blockMax x C (R p)))
          + ∑ q : Fin 2048, Real.exp (Spec.lgK x (R p) (C q) - max M (blockMax x C (R p)))
              * Spec.offd (R p) (C q) * (1 / Spec.cnt t (C q)) : ℝ) : EReal) := by
  rw [pay2_apply, hM, hZ, bm_entry x R C fr fc hfr hfc, ← coe_max, ← EReal.coe_sub, Ideal.exp_coe, ← EReal.coe_mul,
    EReal.coe_add, coe_sum]
  refine congrArg (fun z => ((Z * Real.exp (M - max M (blockMax x C (R p))) : ℝ) : EReal) + z) (Finset.sum_congr rfl fun q _ => ?_)
  rw [lg_entry x R C fr fc hfr hfc, offd_entry R C i hdiag, hw, ← EReal.coe_sub, Ideal.exp_coe, ← EReal.coe_mul, ← EReal.coe_mul]

theorem z_entry_first (hfr : ∀ p k, fr (ix2 p k) = ((Spec.feat x (R p) k : ℝ) : EReal))
    (hfc : ∀ q k, fc (ix2 q k) = ((Spec.feat x (C q) k : ℝ) : EReal))
    (hdiag : ∀ p q, (512 * (i 0).val + p.val = 2048 * (i 1).val + q.val) ↔ R p = C q)
    (hw : ∀ q, w (ix2 (0 : Fin 1) q) = ((1 / Spec.cnt t (C q) : ℝ) : EReal))
    (p : Fin 512) (hM : m0 (ix2 p (0 : Fin 1)) = ⊥) (hZ : z0 (ix2 p (0 : Fin 1)) = 0) :
    k0_pay2 (F := Ideal) (k0_pay9 (F := Ideal) fr fc) (k0_pay10 (F := Ideal) i) (k0_pay12 (F := Ideal) fr fc) m0 m0 w z0 (ix2 p (0 : Fin 1))
      = ((∑ q : Fin 2048, Real.exp (Spec.lgK x (R p) (C q) - blockMax x C (R p))
              * Spec.offd (R p) (C q) * (1 / Spec.cnt t (C q)) : ℝ) : EReal) := by
  rw [pay2_apply, hM, hZ, bm_entry x R C fr fc hfr hfc, zero_mul, zero_add, max_eq_right bot_le, coe_sum]
  refine Finset.sum_congr rfl fun q _ => ?_
  rw [lg_entry x R C fr fc hfr hfc, offd_entry R C i hdiag, hw, ← EReal.coe_sub, Ideal.exp_coe, ← EReal.coe_mul, ← EReal.coe_mul]

theorem out_entry (j : S512x1.Idx) (S M Z N : ℝ) (hZpos : 0 < Z)
    (hS : s0 j = (S : EReal)) (hM : m0 j = (M : EReal)) (hZ : z0 j = (Z : EReal)) (hN : rc j = (N : EReal)) :
    k0_pay5 (F := Ideal) rc s0 m0 z0 j = ((S - M * N - N * Real.log Z : ℝ) : EReal) := by
  rw [pay5_apply, hS, hM, hZ, hN, Ideal.log_coe, if_neg (not_le.mpr hZpos), ← EReal.coe_mul, ← EReal.coe_mul,
    ← EReal.coe_sub, ← EReal.coe_sub]

end Step

end Cert.KernelIdeal.HandValue

end
-- ==== Proof.KI.Online.lean ====
import proofs.«416192_j3616362463447_2_alg».proof.Proof.MathSteps
import proofs.«416192_j3616362463447_2_alg».proof.Proof.KI.Blocks
import proofs.«416192_j3616362463447_2_alg».proof.Proof.KI.Step

noncomputable section

namespace Cert.KernelIdeal.HandValue

open Cert.Spec

variable (x : Fin 4096 → Fin 512 → ℝ) (t : Fin 4096 → BitVec 32)

theorem blockMax_eq (b : ℕ) (hb : b < 4) (i : Fin 8192) : blockMax x (colOf b) i = bmax x b hb i := by
  unfold blockMax bmax
  exact (sup'_blockCols b hb (lgK x i)).symm

theorem mx_first (i : Fin 8192) : blockMax x (colOf 0) i = mxB x 0 i := by
  rw [blockMax_eq x 0 (by norm_num), mxB_zero]

theorem mx_next (b : ℕ) (hb : b + 1 < 4) (i : Fin 8192) :
    max (mxB x b i) (blockMax x (colOf (b + 1)) i) = mxB x (b + 1) i := by
  rw [blockMax_eq x (b + 1) hb, mxB_succ x b hb]

theorem z_first (i : Fin 8192) :
    ∑ q : Fin 2048, Real.exp (lgK x i (colOf 0 q) - blockMax x (colOf 0) i) * offd i (colOf 0 q) * (1 / cnt t (colOf 0 q))
      = zB x t 0 i := by
  rw [zB_zero, sum_blockCols 0 (by norm_num), blockMax_eq x 0 (by norm_num)]

theorem z_next (b : ℕ) (hb : b + 1 < 4) (i : Fin 8192) :
    zB x t b i * Real.exp (mxB x b i - max (mxB x b i) (blockMax x (colOf (b + 1)) i))
      + ∑ q : Fin 2048, Real.exp (lgK x i (colOf (b + 1) q) - max (mxB x b i) (blockMax x (colOf (b + 1)) i))
          * offd i (colOf (b + 1) q) * (1 / cnt t (colOf (b + 1) q))
      = zB x t (b + 1) i := by
  rw [mx_next x b hb, zB_succ x t b hb, sum_blockCols (b + 1) hb]

theorem s_first (i : Fin 8192) :
    0 + ∑ q : Fin 2048, same t i (colOf 0 q) * offd i (colOf 0 q) * lgK x i (colOf 0 q) = sB x t 0 i := by
  rw [zero_add, sB_zero, sum_blockCols 0 (by norm_num)]

theorem s_next (b : ℕ) (hb : b + 1 < 4) (i : Fin 8192) :
    sB x t b i + ∑ q : Fin 2048, same t i (colOf (b + 1) q) * offd i (colOf (b + 1) q) * lgK x i (colOf (b + 1) q)
      = sB x t (b + 1) i := by
  rw [sB_succ, sum_blockCols (b + 1) hb]

theorem out_last (i : Fin 8192) :
    sB x t 3 i - mxB x 3 i * (cnt t i - 1) - (cnt t i - 1) * Real.log (zB x t 3 i) = outK x t i := by
  rw [sB_three, mxB_three, zB_three]
  rfl

end Cert.KernelIdeal.HandValue

end
-- ==== Proof.KI.Cover.lean ====
import proofs.«416192_j3616362463447_2_alg».proof.Proof.KI.Body
import proofs.«416192_j3616362463447_2_alg».proof.Proof.KI.Blocks
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (m : (ℓ : Loc nD τ sig) → Buf (Elt F) ℓ)

theorem flushed_6 (c : Dev nD) (t : Fin cfg0.N) :
    (dats m 0 c).flushed 6 t = (outsAt0 m c t.val t.isLt).1 := by
  show (cfg0.win 6).cut (grid0.coords t) ((dats m 0 c).after 6 t) = _
  rw [after0_6]
  rfl

theorem mem_blk6 (t : Fin cfg0.N) (i : S8192x1.Idx) :
    i ∈ ((cfg0.win 6).blk t).view.set ↔
      ∀ a : Fin 2, win0_6.index t a * S512x1.size a ≤ (i a).val ∧ (i a).val < win0_6.index t a * S512x1.size a + S512x1.size a := by
  show i ∈ ((View.whole main_v39).slice (win0_6.rect t)).set ↔ _
  rw [View.set_slice_whole, Rect.mem_set_unit]
  exact Iff.rfl

theorem cover6 (i : S8192x1.Idx) :
    ∃ t : Fin cfg0.N, (cfg0.win 6).flush t = true ∧ i ∈ ((cfg0.win 6).blk t).view.set := by
  have hi0 : (i 0).val < 8192 := (i 0).isLt
  have hi1 : (i 1).val < 1 := (i 1).isLt
  have hN : 4 * ((i 0).val / 512) + 3 < cfg0.N := lt_of_lt_of_eq (by omega : 4 * ((i 0).val / 512) + 3 < 64) N_0.symm
  refine ⟨⟨4 * ((i 0).val / 512) + 3, hN⟩, (flush0_6 _).2 (by show (4 * ((i 0).val / 512) + 3) % 4 = 3; omega), ?_⟩
  rw [mem_blk6]
  obtain ⟨e0, e1⟩ := idx6 ⟨4 * ((i 0).val / 512) + 3, hN⟩
  intro a
  match a with
  | ⟨0, _⟩ =>
    show win0_6.index ⟨4 * ((i 0).val / 512) + 3, hN⟩ 0 * 512 ≤ (i 0).val
      ∧ (i 0).val < win0_6.index ⟨4 * ((i 0).val / 512) + 3, hN⟩ 0 * 512 + 512
    rw [e0]
    show (4 * ((i 0).val / 512) + 3) / 4 * 512 ≤ (i 0).val ∧ (i 0).val < (4 * ((i 0).val / 512) + 3) / 4 * 512 + 512
    omega
  | ⟨1, _⟩ =>
    show win0_6.index ⟨4 * ((i 0).val / 512) + 3, hN⟩ 1 * 1 ≤ (i 1).val
      ∧ (i 1).val < win0_6.index ⟨4 * ((i 0).val / 512) + 3, hN⟩ 1 * 1 + 1
    rw [e1]
    omega

theorem out_of_flushed (c : Dev nD) (G : S8192x1.Idx → Elt F .f32)
    (hfl : ∀ t : Fin cfg0.N, t.val % 4 = 3 → (dats m 0 c).flushed 6 t = ((cfg0.win 6).blk t).view.read (Elt F) G) :
    (dats m 0 c).arrAt 6 cfg0.N = G :=
  (dats m 0 c).arrAt_eq_of_cover 6 G (fun t hf => hfl t ((flush0_6 t).1 hf)) cover6

theorem out_of_blocks (c : Dev nD) (G : S8192x1.Idx → Elt F .f32)
    (hblk : ∀ (n : Fin cfg0.N), n.val % 4 = 3 → ∀ (p : Fin 512) (u : Fin 1),
        (outsAt0 m c n.val n.isLt).1 (ix2 p u) = G (ix2 (rowOf (n.val / 4) p) u)) :
    (dats m 0 c).arrAt 6 cfg0.N = G := by
  refine out_of_flushed m c G fun t h3 => ?_
  rw [flushed_6]
  funext j
  rw [View.read_apply]
  have ht := lt64 t
  obtain ⟨e0, e1⟩ := idx6 t
  have hj : (outsAt0 m c t.val t.isLt).1 j = (outsAt0 m c t.val t.isLt).1 (ix2 (j 0) (j 1)) := congrArg _ (eq_ix2 j)
  refine hj.trans ((hblk t h3 (j 0) (j 1)).trans ?_)
  show G _ = G _
  refine congrArg G (funext fun a => Fin.ext ?_)
  match a with
  | ⟨0, _⟩ =>
    show (512 * (t.val / 4) + (j 0).val) % 8192 = win0_6.index t 0 * 512 + 1 * (j 0).val
    rw [e0]; have hj0 : (j 0).val < 512 := (j 0).isLt; omega
  | ⟨1, _⟩ =>
    show (j 1).val = win0_6.index t 1 * 1 + 1 * (j 1).val
    rw [e1]; omega

end Cert.KernelIdeal.HandValue

end
-- ==== Proof.KI.Value.lean ====
import proofs.«416192_j3616362463447_2_alg».proof.Proof.KI.Body
import proofs.«416192_j3616362463447_2_alg».proof.Proof.KI.Pieces
import proofs.«416192_j3616362463447_2_alg».proof.Proof.KI.Online
import proofs.«416192_j3616362463447_2_alg».proof.Proof.KI.Cover

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

attribute [local irreducible] kernelRun0_A kernelRun0_B kernelRun0_C

section Value

variable (m : (ℓ : Loc nD τ sig) → Buf (Elt Ideal) ℓ) (c : Dev nD)
variable (x : Fin 4096 → Fin 512 → ℝ) (t : Fin 4096 → BitVec 32)

structure Found : Prop where
  fe : ∀ (a : Fin 8192) (k : Fin 256), (V m c main_v34 : S8192x256.Idx → EReal) (ix2 a k) = ((Cert.Spec.feat x a k : ℝ) : EReal)
  row : ∀ (a : Fin 8192) (u : Fin 1), (V m c main_v35 : S8192x1.Idx → BitVec 32) (ix2 a u) = Cert.Spec.lab t a
  col : ∀ (u : Fin 1) (a : Fin 8192), (V m c main_v36 : S1x8192.Idx → BitVec 32) (ix2 u a) = Cert.Spec.lab t a
  w : ∀ (u : Fin 1) (a : Fin 8192), (V m c main_v37 : S1x8192.Idx → EReal) (ix2 u a) = ((1 / Cert.Spec.cnt t a : ℝ) : EReal)
  rc : ∀ (a : Fin 8192) (u : Fin 1), (V m c main_v38 : S8192x1.Idx → EReal) (ix2 a u) = ((Cert.Spec.cnt t a - 1 : ℝ) : EReal)

variable {m c x t}

theorem hdiag (n : Fin cfg0.N) (p : Fin 512) (q : Fin 2048) :
    (512 * (grid0.coords n 0).val + p.val = 2048 * (grid0.coords n 1).val + q.val) ↔ rowOf (n.val / 4) p = colOf (n.val % 4) q := by
  rw [(coords_eq n).1, (coords_eq n).2, Fin.ext_iff]
  show _ ↔ (512 * (n.val / 4) + p.val) % 8192 = (2048 * (n.val % 4) + q.val) % 8192
  have := lt64 n
  have := p.isLt
  have := q.isLt
  omega

variable (H : Found m c x t) (n : Fin cfg0.N)
include H

theorem hfr (p : Fin 512) (k : Fin 256) :
    (iblk m c 0 n : FVec Ideal S512x256 .bf16) (ix2 p k) = ((Cert.Spec.feat x (rowOf (n.val / 4) p) k : ℝ) : EReal) :=
  (blk0_apply m c n p k).trans (H.fe _ k)

theorem hfc (q : Fin 2048) (k : Fin 256) :
    colRows (grid0.coords n) (iblk m c 1 n : FVec Ideal S8192x256 .bf16) (ix2 q k)
      = ((Cert.Spec.feat x (colOf (n.val % 4) q) k : ℝ) : EReal) := by
  rw [colRows_apply, (coords_eq n).2, blk1_apply]
  exact H.fe _ k

theorem hlr (p : Fin 512) : (iblk m c 2 n : IVec S512x1 32) (ix2 p (0 : Fin 1)) = Cert.Spec.lab t (rowOf (n.val / 4) p) :=
  (blk2_apply m c n p 0).trans (H.row _ _)

theorem hlc (q : Fin 2048) : (iblk m c 3 n : IVec S1x2048 32) (ix2 (0 : Fin 1) q) = Cert.Spec.lab t (colOf (n.val % 4) q) :=
  (blk3_apply m c n 0 q).trans (H.col _ _)

theorem hwt (q : Fin 2048) :
    (iblk m c 4 n : FVec Ideal S1x2048 .f32) (ix2 (0 : Fin 1) q) = ((1 / Cert.Spec.cnt t (colOf (n.val % 4) q) : ℝ) : EReal) :=
  (blk4_apply m c n 0 q).trans (H.w _ _)

theorem hrcn (p : Fin 512) (u : Fin 1) :
    (iblk m c 5 n : FVec Ideal S512x1 .f32) (ix2 p u) = ((Cert.Spec.cnt t (rowOf (n.val / 4) p) - 1 : ℝ) : EReal) :=
  (blk5_apply m c n p u).trans (H.rc _ _)

end Value

section Induction

variable (m : (ℓ : Loc nD τ sig) → Buf (Elt Ideal) ℓ) (c : Dev nD)
variable (x : Fin 4096 → Fin 512 → ℝ) (t : Fin 4096 → BitVec 32)

def ScratchAt (k : ℕ) (hk : k < cfg0.N) : Prop :=
  ∀ (p : Fin 512) (u : Fin 1),
    (outsAt0 (F := Ideal) m c k hk).2.1 (ix2 p u) = ((Cert.Spec.mxB x (k % 4) (rowOf (k / 4) p) : ℝ) : EReal)
    ∧ (outsAt0 (F := Ideal) m c k hk).2.2.1 (ix2 p u) = ((Cert.Spec.zB x t (k % 4) (rowOf (k / 4) p) : ℝ) : EReal)
    ∧ (outsAt0 (F := Ideal) m c k hk).2.2.2 (ix2 p u) = ((Cert.Spec.sB x t (k % 4) (rowOf (k / 4) p) : ℝ) : EReal)

variable {m c x t} (H : Found m c x t)
include H

theorem next_scratch (n : Fin cfg0.N) (b : ℕ) (hb : n.val % 4 = b + 1) (hb4 : b + 1 < 4)
    (m0 z0 s0 : FVec Ideal S512x1 .f32) (p : Fin 512)
    (hM : m0 (ix2 p (0 : Fin 1)) = ((Cert.Spec.mxB x b (rowOf (n.val / 4) p) : ℝ) : EReal))
    (hZ : z0 (ix2 p (0 : Fin 1)) = ((Cert.Spec.zB x t b (rowOf (n.val / 4) p) : ℝ) : EReal))
    (hS : s0 (ix2 p (0 : Fin 1)) = ((Cert.Spec.sB x t b (rowOf (n.val / 4) p) : ℝ) : EReal)) :
    k0_pay4 (F := Ideal) (k0_pay12 (F := Ideal) (iblk m c 0 n) (colRows (grid0.coords n) (iblk m c 1 n))) m0 (ix2 p (0 : Fin 1))
        = ((Cert.Spec.mxB x (n.val % 4) (rowOf (n.val / 4) p) : ℝ) : EReal)
    ∧ k0_pay2 (F := Ideal) (k0_pay9 (F := Ideal) (iblk m c 0 n) (colRows (grid0.coords n) (iblk m c 1 n))) (k0_pay10 (F := Ideal) (grid0.coords n))
          (k0_pay12 (F := Ideal) (iblk m c 0 n) (colRows (grid0.coords n) (iblk m c 1 n))) m0 m0 (iblk m c 4 n) z0 (ix2 p (0 : Fin 1))
        = ((Cert.Spec.zB x t (n.val % 4) (rowOf (n.val / 4) p) : ℝ) : EReal)
    ∧ k0_pay3 (F := Ideal) (k0_pay9 (F := Ideal) (iblk m c 0 n) (colRows (grid0.coords n) (iblk m c 1 n)))
          (k0_pay11 (F := Ideal) (grid0.coords n) (iblk m c 2 n) (iblk m c 3 n)) s0 (ix2 p (0 : Fin 1))
        = ((Cert.Spec.sB x t (n.val % 4) (rowOf (n.val / 4) p) : ℝ) : EReal) := by
  refine ⟨?_, ?_, ?_⟩
  · rw [max_entry x (rowOf (n.val / 4)) (colOf (n.val % 4)) _ _ m0 (hfr H n) (hfc H n), hM, ← coe_max, hb, mx_next x b hb4]
  · rw [z_entry x t (rowOf (n.val / 4)) (colOf (n.val % 4)) _ _ (grid0.coords n) _ m0 z0 (hfr H n) (hfc H n) (hdiag n) (hwt H n) p _ _ hM hZ,
      hb, z_next x t b hb4]
  · rw [s_entry x t (rowOf (n.val / 4)) (colOf (n.val % 4)) _ _ (grid0.coords n) _ _ s0 (hfr H n) (hfc H n) (hdiag n) (hlr H n) (hlc H n) p 0 _ hS,
      hb, s_next x t b hb4]

theorem step_A (n : Fin cfg0.N) (h0 : n.val % 4 = 0) : ScratchAt m c x t n.val n.isLt := by
  have h1 : ¬n.val % 4 = 3 := by omega
  intro p u
  obtain rfl : u = 0 := Subsingleton.elim _ _
  rw [outsAt0_A m c n h0 h1]
  dsimp only [leaves, runA]
  rw [canonA_0, canonA_1, canonA_2]
  refine ⟨?_, ?_, ?_⟩
  · rw [max_entry x (rowOf (n.val / 4)) (colOf (n.val % 4)) _ _ _ (hfr H n) (hfc H n), pay6_apply, max_eq_right bot_le, h0, mx_first]
  · rw [z_entry_first x t (rowOf (n.val / 4)) (colOf (n.val % 4)) _ _ (grid0.coords n) _ _ _ (hfr H n) (hfc H n) (hdiag n) (hwt H n) p
        (pay6_apply _) (pay7_apply _), h0, z_first]
  · rw [s_entry x t (rowOf (n.val / 4)) (colOf (n.val % 4)) _ _ (grid0.coords n) _ _ _ (hfr H n) (hfc H n) (hdiag n) (hlr H n) (hlc H n) p 0 0
        ((pay8_apply _).trans EReal.coe_zero.symm), h0, s_first]

theorem step_BC (n : Fin cfg0.N) (h0 : ¬n.val % 4 = 0)
    (ih : ScratchAt m c x t (n.val - 1) (Nat.lt_of_le_of_lt (Nat.sub_le _ _) n.isLt)) :
    ScratchAt m c x t n.val n.isLt := by
  have hq : (n.val - 1) / 4 = n.val / 4 := by omega
  have hb : n.val % 4 = (n.val - 1) % 4 + 1 := by omega
  have hb4 : (n.val - 1) % 4 + 1 < 4 := by omega
  intro p u
  obtain rfl : u = 0 := Subsingleton.elim _ _
  obtain ⟨iM, iZ, iS⟩ := ih p 0
  rw [hq] at iM iZ iS
  by_cases h1 : n.val % 4 = 3
  · rw [outsAt0_C m c n h0 h1]
    dsimp only [leaves, runC]
    rw [canonC_0, canonC_1, canonC_2]
    exact next_scratch H n ((n.val - 1) % 4) hb hb4 _ _ _ p iM iZ iS
  · rw [outsAt0_B m c n h0 h1]
    dsimp only [leaves, runB]
    simp only [canonB_0, canonB_1, canonB_2]
    exact next_scratch H n ((n.val - 1) % 4) hb hb4 _ _ _ p iM iZ iS

theorem scratch_all : ∀ (k : ℕ) (hk : k < cfg0.N), ScratchAt m c x t k hk
  | 0, hk => step_A H ⟨0, hk⟩ (Nat.zero_mod 4)
  | k + 1, hk => by
    by_cases h0 : (k + 1) % 4 = 0
    · exact step_A H ⟨k + 1, hk⟩ h0
    · exact step_BC H ⟨k + 1, hk⟩ h0 (scratch_all k (Nat.lt_of_succ_lt hk))

theorem out_at (n : Fin cfg0.N) (h1 : n.val % 4 = 3) (p : Fin 512) (u : Fin 1) :
    (outsAt0 (F := Ideal) m c n.val n.isLt).1 (ix2 p u) = ((Cert.Spec.outK x t (rowOf (n.val / 4) p) : ℝ) : EReal) := by
  have h0 : ¬n.val % 4 = 0 := by omega
  have hq : (n.val - 1) / 4 = n.val / 4 := by omega
  have hb : n.val % 4 = (n.val - 1) % 4 + 1 := by omega
  have hb4 : (n.val - 1) % 4 + 1 < 4 := by omega
  obtain rfl : u = 0 := Subsingleton.elim _ _
  obtain ⟨iM, iZ, iS⟩ := scratch_all H (n.val - 1) (Nat.lt_of_le_of_lt (Nat.sub_le _ _) n.isLt) p 0
  rw [hq] at iM iZ iS
  obtain ⟨eM, eZ, eS⟩ := next_scratch H n ((n.val - 1) % 4) hb hb4 _ _ _ p iM iZ iS
  rw [outsAt0_C m c n h0 h1]
  dsimp only [leaves, runC]
  rw [canonC_6]
  rw [out_entry _ _ _ _ (ix2 p (0 : Fin 1)) _ _ _ _ (Cert.Spec.zB_pos x t (n.val % 4) (rowOf (n.val / 4) p)) eS eM eZ (hrcn H n p 0),
    h1, out_last]

end Induction

theorem out_array (m : (ℓ : Loc nD τ sig) → Buf (Elt Ideal) ℓ) (c : Dev nD) (x : Fin 4096 → Fin 512 → ℝ) (t : Fin 4096 → BitVec 32)
    (hfe : ∀ (a : Fin 8192) (k : Fin 256), (V m c main_v34 : S8192x256.Idx → EReal) (ix2 a k) = ((Cert.Spec.feat x a k : ℝ) : EReal))
    (hrow : ∀ (a : Fin 8192) (u : Fin 1), (V m c main_v35 : S8192x1.Idx → BitVec 32) (ix2 a u) = Cert.Spec.lab t a)
    (hcol : ∀ (u : Fin 1) (a : Fin 8192), (V m c main_v36 : S1x8192.Idx → BitVec 32) (ix2 u a) = Cert.Spec.lab t a)
    (hw : ∀ (u : Fin 1) (a : Fin 8192), (V m c main_v37 : S1x8192.Idx → EReal) (ix2 u a) = ((1 / Cert.Spec.cnt t a : ℝ) : EReal))
    (hrc : ∀ (a : Fin 8192) (u : Fin 1), (V m c main_v38 : S8192x1.Idx → EReal) (ix2 a u) = ((Cert.Spec.cnt t a - 1 : ℝ) : EReal)) :
    (dats (F := Ideal) m 0 c).arrAt 6 cfg0.N = fun j : S8192x1.Idx => ((Cert.Spec.outK x t ⟨(j 0).val, idx2_lt0 j⟩ : ℝ) : EReal) := by
  have H : Found m c x t := ⟨hfe, hrow, hcol, hw, hrc⟩
  refine out_of_blocks m c _ fun n h3 p u => ?_
  refine (out_at H n h3 p u).trans ?_
  rfl

end Cert.KernelIdeal.HandValue

end
-- ==== Proof.RefValue.lean ====
import proofs.«416192_j3616362463447_2_alg».proof.Proof.Gen.ReferenceIdeal.Read
import proofs.«416192_j3616362463447_2_alg».proof.Proof.Spec
import proofs.«416192_j3616362463447_2_alg».proof.Proof.Math
import proofs.«416192_j3616362463447_2_alg».proof.Proof.LibCounts
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read
open Finset

abbrev at0 {n : ℕ} (j : (⟨1, ![n]⟩ : Shape).Idx) : Fin n := ⟨(j 0).val, (j 0).isLt⟩

abbrev row {n0 n1 : ℕ} (i : (⟨2, ![n0, n1]⟩ : Shape).Idx) : Fin n0 := ⟨(i 0).val, idx2_lt0 i⟩

abbrev col {n0 n1 : ℕ} (i : (⟨2, ![n0, n1]⟩ : Shape).Idx) : Fin n1 := ⟨(i 1).val, idx2_lt1 i⟩

def X (x : Fin 4096 → Fin 512 → ℝ) : (⟨S4096x512, .f32⟩ : BufTy).Contents (Elt Ideal) :=
  fun i => ((x (row i) (col i) : ℝ) : EReal)

def T (t : Fin 4096 → BitVec 32) : (⟨S4096, .i32⟩ : BufTy).Contents (Elt Ideal) :=
  fun i => t (at0 i)

variable (x : Fin 4096 → Fin 512 → ℝ) (t : Fin 4096 → BitVec 32)

theorem t2_apply (j : S8192.Idx) :
    val_main_v0 (F := Ideal) (T t) j = Cert.Spec.lab t (at0 j) := by
  unfold val_main_v0
  by_cases h : (j 0).val < 4096
  · rw [concatenate_pair_apply_left (0 : Fin S8192.rank) (T t) (T t) concatenates_S4096_S4096_S8192_d0 j rfl
      (ix1 ⟨(j 0).val, h⟩) (fun b => match b with | ⟨0, _⟩ => rfl)]
    show t _ = t _
    congr 1; exact Fin.ext (Nat.mod_eq_of_lt h).symm
  · have hj : (j 0).val < 8192 := (j 0).isLt
    rw [concatenate_pair_apply_right (0 : Fin S8192.rank) (T t) (T t) concatenates_S4096_S4096_S8192_d0 j rfl rfl
      (ix1 ⟨(j 0).val - 4096, by omega⟩) (fun b hb => match b, hb with | ⟨0, _⟩, hb => absurd rfl hb)
      (by show (j 0).val - 4096 + 4096 = (j 0).val; omega)]
    have e : (j 0).val - 4096 = (j 0).val % 4096 := by omega
    exact congrArg t (Fin.ext e)

theorem feats_apply (j : S8192x256.Idx) :
    val_main_v27 (F := Ideal) (X x) j = ((Cert.Spec.feat x (row j) (col j) : ℝ) : EReal) := by
  unfold val_main_v27
  have h1 : (j 1).val < 256 := (j 1).isLt
  by_cases h : (j 0).val < 4096
  · rw [concatenate_pair_apply_left (0 : Fin S8192x256.rank) _ _ concatenates_S4096x256_S4096x256_S8192x256_d0 j rfl
      (ix2 ⟨(j 0).val, h⟩ ⟨(j 1).val, h1⟩) (fun b => match b with | ⟨0, _⟩ => rfl | ⟨1, _⟩ => rfl)]
    rw [val_main_v25_apply]
    unfold Cert.Spec.feat X
    rw [dif_pos h]
  · have hj : (j 0).val < 8192 := (j 0).isLt
    rw [concatenate_pair_apply_right (0 : Fin S8192x256.rank) _ _ concatenates_S4096x256_S4096x256_S8192x256_d0 j rfl rfl
      (ix2 ⟨(j 0).val - 4096, by omega⟩ ⟨(j 1).val, h1⟩)
      (fun b hb => match b, hb with | ⟨0, _⟩, hb => absurd rfl hb | ⟨1, _⟩, _ => rfl)
      (by show (j 0).val - 4096 + 4096 = (j 0).val; omega)]
    rw [val_main_v26_apply]
    unfold Cert.Spec.feat X
    rw [dif_neg h]
    have e : 256 + (j 1).val = (j 1).val + 256 := by omega
    exact congrArg (fun k : Fin 512 => ((x ⟨(j 0).val - 4096, by omega⟩ k : ℝ) : EReal)) (Fin.ext e)

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem dot_apply (i : S8192x8192.Idx) :
    val_main_v29 (F := Ideal) (X x) i = ((Cert.Spec.dot x (row i) (col i) : ℝ) : EReal) := by
  rw [val_main_v29_apply]
  unfold Cert.Spec.dot
  rw [← coe_sum]
  refine Finset.sum_congr rfl fun k _ => ?_
  rw [val_main_v28_apply, feats_apply, feats_apply, ← EReal.coe_mul]

theorem ofBits_temp : Ideal.ofBits .f32 0x3DCCCCCD#32 = ((Cert.Spec.temp : ℝ) : EReal) := by
  unfold Cert.Spec.temp
  simp [Ideal.ofBits, Ideal.ieee, -EReal.coe_mul]; norm_num

theorem temp_ne_zero : Cert.Spec.temp ≠ 0 := by unfold Cert.Spec.temp; norm_num

theorem logits_apply (i : S8192x8192.Idx) :
    val_main_v31 (F := Ideal) (X x) i = ((Cert.Spec.lgR x (row i) (col i) : ℝ) : EReal) := by
  rw [val_main_v31_apply, val_main_v30_apply, val_main_cst_4_apply, dot_apply]
  simp only [Ideal.hostDivf_def, Ideal.ofBits_def]
  rw [ofBits_temp, Ideal.div_coe temp_ne_zero, ← EReal.coe_mul]
  unfold Cert.Spec.lgR
  rw [mul_one_div]

theorem ofBits_neg_inf : Ideal.ofBits .f32 0xFF800000#32 = ⊥ := by simp [Ideal.ofBits, Ideal.ieee]

theorem fold_max_bot_coe {ι : Type*} [Fintype ι] [Nonempty ι] (f : ι → ℝ) :
    (Finset.univ : Finset ι).fold max (⊥ : EReal) (fun k => ((f k : ℝ) : EReal))
      = ((Finset.univ.sup' Finset.univ_nonempty f : ℝ) : EReal) := by
  apply le_antisymm
  · rw [Finset.fold_max_le]
    exact ⟨bot_le, fun k _ => EReal.coe_le_coe_iff.2 (Finset.le_sup' f (Finset.mem_univ k))⟩
  · obtain ⟨k, _, hk⟩ := Finset.exists_mem_eq_sup' Finset.univ_nonempty f
    rw [hk]
    exact (Finset.le_fold_max _).2 (Or.inr ⟨k, Finset.mem_univ k, le_rfl⟩)

theorem hostMax_rows (y : FVec Ideal S8192x8192 .f32) (f : Fin 8192 → Fin 8192 → ℝ)
    (hy : ∀ i, y i = ((f (row i) (col i) : ℝ) : EReal)) (j : S8192.Idx) :
    Host.reduce FloatOps.maximumf y (constant (F := Ideal) S_ .f32 0xFF800000#32) reducesTo_S8192x8192_S8192_d1 h_S_ j
      = ((Finset.univ.sup' Finset.univ_nonempty (f (at0 j)) : ℝ) : EReal) := by
  have hR : S8192x8192.Reduces [1] S8192 := by decide
  rw [Host.reduce_eq_fold_single FloatOps.maximumf y _ reducesTo_S8192x8192_S8192_d1 hR h_S_]
  have e : (y ∘ hR.lift j) = fun k : Fin 8192 => ((f (at0 j) k : ℝ) : EReal) := by
    funext k
    show y (hR.lift j k) = _
    rw [hy]
    rfl
  rw [e]
  show Finset.fold max (Ideal.ofBits .f32 0xFF800000#32) _ (Finset.univ : Finset (Fin 8192)) = _
  rw [ofBits_neg_inf]
  exact fold_max_bot_coe (ι := Fin 8192) _

theorem rowmax_apply (j : S8192.Idx) :
    val_main_v32 (F := Ideal) (X x) j = ((Cert.Spec.mxR x (at0 j) : ℝ) : EReal) := by
  unfold val_main_v32
  exact hostMax_rows _ (Cert.Spec.lgR x) (logits_apply x) j

theorem cmpi_eq_toNat {w : ℕ} (a b : BitVec w) :
    (((IntOp.cmpi .eq a b).toNat : ℝ) : EReal) = (((if a = b then 1 else 0 : ℝ)) : EReal) := by
  unfold IntOp.cmpi
  by_cases h : a = b
  · simp [h]
  · simp [h]

theorem iota_eq_iff {a b : ℕ} (ha : a < 8192) (hb : b < 8192) :
    IntOp.addi (BitVec.ofNat 32 a) 0#32 = BitVec.ofNat 32 b ↔ a = b := by
  unfold IntOp.addi
  rw [BitVec.add_zero]
  constructor
  · intro e
    have := congrArg BitVec.toNat e
    simp only [BitVec.toNat_ofNat] at this
    omega
  · rintro rfl; rfl

theorem offd_apply (i : S8192x8192.Idx) :
    val_main_v23 (F := Ideal) i = ((Cert.Spec.offd (row i) (col i) : ℝ) : EReal) := by
  rw [val_main_v23_apply, val_main_v22_apply, val_main_cst_3_apply, val_main_v21_apply, val_main_v20_apply,
    val_main_v19_apply, val_main_v16_apply, val_main_v18_apply, val_main_c_2_apply, val_main_v17_apply]
  simp only [Ideal.subf_def, Ideal.ofBits_def, Ideal.ofBits_one_f32]
  show (1 : EReal) - (((IntOp.cmpi .eq _ _).toNat : ℝ) : EReal) = _
  rw [cmpi_eq_toNat]
  unfold Cert.Spec.offd
  by_cases h : (i 0).val = (i 1).val
  · rw [if_pos ((iota_eq_iff (idx2_lt0 i) (idx2_lt1 i)).2 h), if_pos (Fin.ext h : row i = col i)]
    show ((1 : ℝ) : EReal) - ((1 : ℝ) : EReal) = ((0 : ℝ) : EReal)
    rw [← EReal.coe_sub, sub_self]
  · rw [if_neg (fun e => h ((iota_eq_iff (idx2_lt0 i) (idx2_lt1 i)).1 e)), if_neg (fun e : row i = col i => h (congrArg Fin.val e))]
    show ((1 : ℝ) : EReal) - ((0 : ℝ) : EReal) = ((1 : ℝ) : EReal)
    rw [← EReal.coe_sub, sub_zero]

theorem mask_apply (i : S8192x8192.Idx) :
    val_main_v24 (F := Ideal) (T t) i
      = ((Cert.Spec.same t (row i) (col i) * Cert.Spec.offd (row i) (col i) : ℝ) : EReal) := by
  rw [val_main_v24_apply, val_main_v15_apply, val_main_v14_apply, val_main_v12_apply, val_main_v13_apply,
    val_main_v10_apply, val_main_v11_apply, t2_apply, t2_apply, offd_apply]
  simp only [Ideal.mulf_def]
  rw [EReal.coe_mul]
  congr 1
  show (((IntOp.cmpi .eq _ _).toNat : ℝ) : EReal) = _
  rw [cmpi_eq_toNat]
  rfl

theorem shifted_apply (i : S8192x8192.Idx) :
    val_main_v35 (F := Ideal) (X x) i
      = ((Cert.Spec.lgR x (row i) (col i) - Cert.Spec.mxR x (row i) : ℝ) : EReal) := by
  rw [val_main_v35_apply, val_main_v34_apply, val_main_v33_apply, logits_apply, rowmax_apply]
  simp only [Ideal.subf_def]
  rw [← EReal.coe_sub]

theorem expmask_apply (i : S8192x8192.Idx) :
    val_main_v37 (F := Ideal) (X x) i
      = ((Real.exp (Cert.Spec.lgR x (row i) (col i) - Cert.Spec.mxR x (row i)) * Cert.Spec.offd (row i) (col i) : ℝ) : EReal) := by
  rw [val_main_v37_apply, val_main_v36_apply, shifted_apply, offd_apply]
  simp only [Ideal.mulf_def, Ideal.hostUnary_exp_def, Ideal.exp_coe]
  rw [← EReal.coe_mul]

theorem cg_apply (hrange : ∀ k, (t k).toNat < 100) (j : S8192.Idx) :
    val_main_v44 (F := Ideal) (T t) j = ((Cert.Spec.cnt t (at0 j) : ℝ) : EReal) := by
  have hlab : ∀ j, (val_main_v0 (F := Ideal) (T t) j).toNat < 100 := fun j => by
    rw [t2_apply]; exact hrange _
  have e42 : val_main_v42 (F := Ideal) (T t) = val_main_v0 (F := Ideal) (T t) := by
    unfold val_main_v42 val_main_v39 val_main_v41
    exact Cert.LibCounts.normalise_eq _ _ _ (fun j => by rw [val_main_v38_apply]; rfl)
      (fun j => lt_trans (hlab j) (by norm_num))
  have e6 : val_main_v6 (F := Ideal) (T t) = val_main_v0 (F := Ideal) (T t) := by
    unfold val_main_v6 val_main_v3 val_main_v5
    exact Cert.LibCounts.normalise_eq _ _ _ (fun j => by rw [val_main_v2_apply]; rfl)
      (fun j => lt_trans (hlab j) (by norm_num))
  unfold val_main_v44 val_main_v9 val_main_v43 val_main_v7
  rw [e42, e6]
  exact Cert.LibCounts.gather_counts_label scatter_S100_S8192x1_S8192_n_0_0_1 rfl rfl rfl rfl
    gather_S100_S8192x1_S8192_n_0_n_n_0_1_1 rfl rfl rfl rfl bcast_S8192_S8192x1_0 t
    (val_main_v1 (F := Ideal)) (val_main_v0 (F := Ideal) (T t)) (val_main_v8 (F := Ideal))
    (fun k => by rw [val_main_v1_apply, val_main_cst_apply]; exact Ideal.ofBits_zero_f32)
    (fun j => by rw [val_main_v8_apply, val_main_cst_1_apply]; exact Ideal.ofBits_one_f32)
    hlab (fun j => t2_apply t j) j

theorem zterm_apply (hrange : ∀ k, (t k).toNat < 100) (i : S8192x8192.Idx) :
    val_main_v47 (F := Ideal) (X x) (T t) i
      = ((Real.exp (Cert.Spec.lgR x (row i) (col i) - Cert.Spec.mxR x (row i)) * Cert.Spec.offd (row i) (col i)
          / Cert.Spec.cnt t (col i) : ℝ) : EReal) := by
  rw [val_main_v47_apply, val_main_v46_apply, val_main_v45_apply, expmask_apply, cg_apply t hrange]
  simp only [Ideal.hostDivf_def]
  rw [Ideal.div_coe (Cert.Spec.cnt_ne_zero t _), ← EReal.coe_mul, mul_one_div]

theorem z_apply (hrange : ∀ k, (t k).toNat < 100) (j : S8192.Idx) :
    val_main_v48 (F := Ideal) (X x) (T t) j = ((Cert.Spec.zR x t (at0 j) : ℝ) : EReal) := by
  rw [val_main_v48_apply, val_main_cst_8_apply]
  simp only [Ideal.ofBits_def, Ideal.ofBits_zero_f32, zero_add]
  unfold Cert.Spec.zR
  rw [← coe_sum]
  refine Finset.sum_congr rfl fun k _ => ?_
  rw [zterm_apply x t hrange]

theorem logz_apply (hrange : ∀ k, (t k).toNat < 100) (i : S8192x1.Idx) :
    val_main_v50 (F := Ideal) (X x) (T t) i = ((Real.log (Cert.Spec.zR x t (row i)) : ℝ) : EReal) := by
  rw [val_main_v50_apply, val_main_v49_apply, z_apply x t hrange]
  simp only [Ideal.hostUnary_log_def, Ideal.log_coe]
  rw [if_neg (not_le.2 (Cert.Spec.zR_pos x t _))]

theorem logp_apply (hrange : ∀ k, (t k).toNat < 100) (i : S8192x8192.Idx) :
    val_main_v52 (F := Ideal) (X x) (T t) i
      = ((Cert.Spec.lgR x (row i) (col i) - Cert.Spec.mxR x (row i) - Real.log (Cert.Spec.zR x t (row i)) : ℝ) : EReal) := by
  rw [val_main_v52_apply, val_main_v51_apply, shifted_apply, logz_apply x t hrange]
  simp only [Ideal.subf_def]
  rw [← EReal.coe_sub]

theorem numterm_apply (hrange : ∀ k, (t k).toNat < 100) (i : S8192x8192.Idx) :
    val_main_v53 (F := Ideal) (X x) (T t) i
      = ((Cert.Spec.same t (row i) (col i) * Cert.Spec.offd (row i) (col i)
          * (Cert.Spec.lgR x (row i) (col i) - Cert.Spec.mxR x (row i) - Real.log (Cert.Spec.zR x t (row i))) : ℝ) : EReal) := by
  rw [val_main_v53_apply, mask_apply, logp_apply x t hrange]
  simp only [Ideal.mulf_def]
  rw [← EReal.coe_mul]

theorem num_apply (hrange : ∀ k, (t k).toNat < 100) (i : S_.Idx) :
    val_main_v54 (F := Ideal) (X x) (T t) i = ((Cert.Spec.numR x t : ℝ) : EReal) := by
  rw [val_main_v54_apply, val_main_cst_9_apply]
  simp only [Ideal.ofBits_def, Ideal.ofBits_zero_f32, zero_add]
  rw [sum_idx2]
  unfold Cert.Spec.numR
  rw [← coe_sum]
  refine Finset.sum_congr rfl fun a _ => ?_
  rw [← coe_sum]
  refine Finset.sum_congr rfl fun b _ => ?_
  rw [numterm_apply x t hrange]

theorem den_apply (i : S_.Idx) :
    val_main_v56 (F := Ideal) (T t) i = ((Cert.Spec.denR t : ℝ) : EReal) := by
  rw [val_main_v56_apply, val_main_cst_10_apply]
  simp only [Ideal.ofBits_def, Ideal.ofBits_zero_f32, zero_add]
  rw [sum_idx2]
  unfold Cert.Spec.denR
  rw [← coe_sum]
  refine Finset.sum_congr rfl fun a _ => ?_
  rw [← coe_sum]
  refine Finset.sum_congr rfl fun b _ => ?_
  rw [mask_apply]

theorem ref_value_XT (hrange : ∀ k, (t k).toNat < 100) :
    val_main_v57 (F := Ideal) (X x) (T t) = fun _ => ((Cert.Spec.lossRef x t : ℝ) : EReal) := by
  funext i
  rw [val_main_v57_apply, val_main_v55_apply, num_apply x t hrange, den_apply]
  simp only [Ideal.hostDivf_def, Ideal.hostNegf_def, Ideal.negf_def]
  rw [Ideal.div_coe (Cert.Spec.denR_ne_zero t), ← EReal.coe_neg, ← EReal.coe_mul, mul_one_div]
  rfl

def labelsOf (a1 : (⟨S4096, .i32⟩ : BufTy).Contents (Elt Ideal)) : Fin 4096 → BitVec 32 := fun k => a1 (ix1 k)

theorem T_labelsOf (a1 : (⟨S4096, .i32⟩ : BufTy).Contents (Elt Ideal)) : T (labelsOf a1) = a1 := by
  funext i
  exact congrArg a1 (eq_ix1 i).symm

theorem ref_value (a0 : (⟨S4096x512, .f32⟩ : BufTy).Contents (Elt Ideal)) (a1 : (⟨S4096, .i32⟩ : BufTy).Contents (Elt Ideal))
    (x : Fin 4096 → Fin 512 → ℝ) (t : Fin 4096 → BitVec 32)
    (hx : a0 = fun i => ((x ⟨(i 0).val, idx2_lt0 i⟩ ⟨(i 1).val, idx2_lt1 i⟩ : ℝ) : EReal))
    (ht : a1 = fun i => t ⟨(i 0).val, (i 0).isLt⟩)
    (hrange : ∀ i, (a1 i).toNat < 100) :
    val_main_v57 (F := Ideal) a0 a1 = fun _ => ((Cert.Spec.lossRef x t : ℝ) : EReal) := by
  subst hx ht
  exact ref_value_XT x t (fun k => hrange (ix1 k))

theorem res_value (m : (ℓ : Loc nD τ sig) → Buf (Elt Ideal) ℓ) (c : Dev nD)
    (x : Fin 4096 → Fin 512 → ℝ) (t : Fin 4096 → BitVec 32)
    (hx : m ((c.tc : Thread nD τ).loc main_arg0) = fun i => ((x ⟨(i 0).val, idx2_lt0 i⟩ ⟨(i 1).val, idx2_lt1 i⟩ : ℝ) : EReal))
    (ht : m ((c.tc : Thread nD τ).loc main_arg1) = fun i => t ⟨(i 0).val, (i 0).isLt⟩)
    (hrange : ∀ i, (m ((c.tc : Thread nD τ).loc main_arg1) i).toNat < 100) :
    Cert.ReferenceIdeal.Value.res_main_v57 (F := Ideal) m c = fun _ => ((Cert.Spec.lossRef x t : ℝ) : EReal) := by
  rw [val_main_v57_eq]
  exact ref_value _ _ x t hx ht hrange

end Cert.ReferenceIdeal.RefValue

end
-- ==== Proof.PreDecode.lean ====
import Idealize.ShloMosaic.Lib.ReduceAll
import Idealize.ShloMosaic.Lib.StableHlo.Predicate
import Idealize.ShloMosaic.Lib.IdealHost
import proofs.«416192_j3616362463447_2_alg».proof.Pre_finite_inputs

noncomputable section

namespace Cert.PreDecode

open Idealize.ShloMosaic Idealize.ShloMosaic.StableHlo.Predicate Cert.Pre_finite_inputs

instance : Subsingleton S_.Idx := ⟨fun a b => funext fun d => d.elim0⟩

theorem real_of_abs_lt_top {x : EReal} (h : max x (-x) < ⊤) : ((x.toReal : ℝ) : EReal) = x := by
  refine EReal.coe_toReal (fun e => ?_) (fun e => ?_)
  · subst e; simp at h
  · subst e; simp at h

theorem toNat_lt_of_signed {b : BitVec 32} (h0 : IntOp.cmpi .sge b 0#32 = 1#1) (h1 : IntOp.cmpi .slt b 100#32 = 1#1) :
    b.toNat < 100 := by
  unfold IntOp.cmpi at h0 h1
  simp only [ofBool_eq_one_iff, BitVec.sle, BitVec.slt, decide_eq_true_eq] at h0 h1
  have z : (0#32 : BitVec 32).toInt = 0 := by decide
  have c : (100#32 : BitVec 32).toInt = 100 := by decide
  rw [z] at h0
  rw [c] at h1
  have e := BitVec.toInt_eq_toNat_cond b
  by_cases hc : 2 * b.toNat < 2 ^ 32
  · rw [if_pos hc] at e; omega
  · rw [if_neg hc] at e; omega

theorem decode {a0 : FVec Ideal S4096x512 .f32} {a1 : IVec S4096 32} [Facts]
    (h : fn (F := Ideal) a0 a1 = fun _ => 1#1) :
    (∃ x : Fin 4096 → Fin 512 → ℝ,
        a0 = fun i => ((x ⟨(i 0).val, ValueIdx.idx2_lt0 i⟩ ⟨(i 1).val, ValueIdx.idx2_lt1 i⟩ : ℝ) : EReal)) ∧
      (∀ i, (a1 i).toNat < 100) := by
  have h0 := congrFun h ValueIdx.ix0
  dsimp only [fn] at h0
  obtain ⟨h12, h3⟩ := IntOp.andi_eq_one.1 h0
  obtain ⟨h1, h2⟩ := IntOp.andi_eq_one.1 h12
  have f1 := Host.reduce_andi_all _ _ _ _ _ h1
  have f2 := Host.reduce_andi_all _ _ _ _ _ h2
  have f3 := Host.reduce_andi_all _ _ _ _ _ h3
  refine ⟨⟨fun i k => (a0 (ValueIdx.ix2 i k)).toReal, ?_⟩, fun i => toNat_lt_of_signed (f2 i) (f3 i)⟩
  funext i
  have hi : Ideal.cmp .olt (max (a0 i) (-(a0 i))) (Ideal.ofBits .f32 0x7F800000#32) = 1#1 := f1 i
  have ht : Ideal.ofBits .f32 0x7F800000#32 = ⊤ := by simp [Ideal.ofBits, Ideal.ieee]
  rw [ht] at hi
  unfold Ideal.cmp at hi
  simp only [ofBool_eq_one_iff, decide_eq_true_eq] at hi
  have hr := real_of_abs_lt_top hi
  have hix : ValueIdx.ix2 (n0 := 4096) (n1 := 512) ⟨(i 0).val, ValueIdx.idx2_lt0 i⟩ ⟨(i 1).val, ValueIdx.idx2_lt1 i⟩ = i :=
    (ValueIdx.eq_ix2 i).symm
  show a0 i = (((a0 (ValueIdx.ix2 ⟨(i 0).val, ValueIdx.idx2_lt0 i⟩ ⟨(i 1).val, ValueIdx.idx2_lt1 i⟩)).toReal : ℝ) : EReal)
  rw [hix, hr]

end Cert.PreDecode

end
-- ==== Proof.Claims.lean ====
import proofs.«416192_j3616362463447_2_alg».proof.Defs
import proofs.«416192_j3616362463447_2_alg».proof.Proof.Gen.Kernel
import proofs.«416192_j3616362463447_2_alg».proof.Proof.Gen.KernelIdeal
import proofs.«416192_j3616362463447_2_alg».proof.Proof.Gen.ReferenceIdeal
import proofs.«416192_j3616362463447_2_alg».proof.Proof.Gen.Pre_finite_inputs
import proofs.«416192_j3616362463447_2_alg».proof.Proof.Gen.ReferenceIdeal.Run
import proofs.«416192_j3616362463447_2_alg».proof.Proof.K.Run
import proofs.«416192_j3616362463447_2_alg».proof.Proof.KI.Run
import proofs.«416192_j3616362463447_2_alg».proof.Proof.KI.Host
import proofs.«416192_j3616362463447_2_alg».proof.Proof.KI.Value
import proofs.«416192_j3616362463447_2_alg».proof.Proof.RefValue
import proofs.«416192_j3616362463447_2_alg».proof.Proof.PreDecode
import proofs.«416192_j3616362463447_2_alg».proof.Proof.LibCounts
import proofs.«416192_j3616362463447_2_alg».proof.Proof.Math

noncomputable section

open Idealize.ShloMosaic Idealize.ShloMosaic.TcCoe Idealize.SL.Sem

namespace Cert.Proof.Claims

theorem frame_k : Cert.frame_Kernel := fun m ρ _ =>
  (θ_run Cert.Kernel.defs _ _).mono (fun _ h c => ⟨(h c).2.1, (h c).2.2⟩) (Cert.Kernel.Hand.run (F := Bits) m ρ)

theorem frame_ki : Cert.frame_KernelIdeal := fun m ρ _ =>
  (θ_run Cert.KernelIdeal.defs _ _).mono (fun _ h c => ⟨(h c).2.1, (h c).2.2⟩) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  IdealRules.named_const.statement Cert.KernelIdeal.κ "inv_temp" .f32 0x41200000#32 ((134217728 / 13421773 : ℝ) : EReal) rfl

theorem labels_spec (a1 : IVec ⟨1, ![4096]⟩ 32) :
    a1 = fun i => Cert.LibCounts.labels a1 ⟨(i 0).val, (i 0).isLt⟩ := by
  funext i
  unfold Cert.LibCounts.labels
  exact congrArg a1 (Cert.LibCounts.ofFin_eta i).symm

section KernelValue

open Cert.KernelIdeal Cert.KernelIdeal.Gen Cert.KernelIdeal.Hand

variable (m : (ℓ : Loc nD τ sig) → Buf (Elt Ideal) ℓ) (c : Dev nD) (x : Fin 4096 → Fin 512 → ℝ) (t : Fin 4096 → BitVec 32)
  (hx : (m ((c : Thread nD τ).loc main_arg0) : S4096x512.Idx → EReal)
    = fun i : S4096x512.Idx => ((x ⟨(i 0).val, ValueIdx.idx2_lt0 i⟩ ⟨(i 1).val, ValueIdx.idx2_lt1 i⟩ : ℝ) : EReal))
  (ht : (m ((c : Thread nD τ).loc main_arg1) : S4096.Idx → BitVec 32) = fun i : S4096.Idx => t ⟨(i 0).val, (i 0).isLt⟩)
  (hr : ∀ k, (t k).toNat < 100)

include hx ht hr in
theorem kernel_value :
    (Wfin m (dats (F := Ideal) m) c (Proc.devRef .tc main_v43) : S_.Idx → EReal)
      = fun _ => ((Cert.Spec.lossK x t : ℝ) : EReal) :=
  Cert.KernelIdeal.HandHost.tail_value x t _
    (Cert.KernelIdeal.HandValue.out_array m c x t
      (fun a k => Cert.KernelIdeal.HandHost.V_v34_apply m c x hx a k)
      (fun a u => Cert.KernelIdeal.HandHost.V_v35_apply m c t ht a u)
      (fun u a => Cert.KernelIdeal.HandHost.V_v36_apply m c t ht u a)
      (fun u a => Cert.KernelIdeal.HandHost.V_v37_apply m c t hr ht u a)
      (fun a u => Cert.KernelIdeal.HandHost.V_v38_apply m c t hr ht a u))
    (Wexit m (dats (F := Ideal) m) c) (Wexit_out m (dats (F := Ideal) m) c)
    ((Wexit_of_ne m (dats (F := Ideal) m) c main_v30 (by decide)).trans (Cert.KernelIdeal.HandHost.V_v30 m c t hr ht))
    (Cert.Spec.den_ne_zero t)

end KernelValue

theorem algebraic : Cert.algebraic_KernelIdeal_ReferenceIdeal := by
  intro m ρ m' ρ' hpre hagree
  have hdec : ∀ c : Dev Cert.KernelIdeal.nD, ∃ x : Fin 4096 → Fin 512 → ℝ,
      ((m ((c.tc : Thread Cert.KernelIdeal.nD Cert.KernelIdeal.τ).loc Cert.KernelIdeal.main_arg0) : Cert.KernelIdeal.S4096x512.Idx → EReal)
          = fun i => ((x ⟨(i 0).val, ValueIdx.idx2_lt0 i⟩ ⟨(i 1).val, ValueIdx.idx2_lt1 i⟩ : ℝ) : EReal))
        ∧ ∀ i, ((m ((c.tc : Thread Cert.KernelIdeal.nD Cert.KernelIdeal.τ).loc Cert.KernelIdeal.main_arg1) : Cert.KernelIdeal.S4096.Idx → BitVec 32) i).toNat < 100 :=
    fun c => by
      obtain ⟨⟨x, hx⟩, hr⟩ := Cert.PreDecode.decode (hpre c)
      exact ⟨x, hx, hr⟩
  choose x hx hr using hdec
  refine ⟨fun c => fun _ => ((Cert.Spec.lossK (x c) (Cert.LibCounts.labels (m ((c.tc : Thread Cert.KernelIdeal.nD Cert.KernelIdeal.τ).loc Cert.KernelIdeal.main_arg1))) : ℝ) : EReal), ?_, ?_⟩
  · exact (θ_run Cert.KernelIdeal.defs _ _).mono
      (fun _ h c => ⟨(h c).1.trans (kernel_value m c (x c) _ (hx c) (labels_spec _) (fun k => hr c _)), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    have hv := Cert.ReferenceIdeal.RefValue.res_value m' c (x c)
      (Cert.LibCounts.labels (m ((c.tc : Thread Cert.KernelIdeal.nD Cert.KernelIdeal.τ).loc Cert.KernelIdeal.main_arg1)))
      (by rw [(hagree c).1]; exact hx c) (by rw [(hagree c).2]; exact labels_spec _) (by rw [(hagree c).2]; exact hr c)
    exact hv.trans (funext fun _ => congrArg (fun r : ℝ => (r : EReal)) (Cert.Spec.lossK_eq_lossRef _ _).symm)

end Cert.Proof.Claims

end
-- ==== Proof.lean ====
import proofs.«416192_j3616362463447_2_alg».proof.Defs
import proofs.«416192_j3616362463447_2_alg».proof.Proof.Gen.Kernel
import proofs.«416192_j3616362463447_2_alg».proof.Proof.Gen.Kernel.Skeleton
import proofs.«416192_j3616362463447_2_alg».proof.Proof.Gen.Kernel.Launch
import proofs.«416192_j3616362463447_2_alg».proof.Proof.Gen.Kernel.Points
import proofs.«416192_j3616362463447_2_alg».proof.Proof.Gen.KernelIdeal
import proofs.«416192_j3616362463447_2_alg».proof.Proof.Gen.KernelIdeal.Skeleton
import proofs.«416192_j3616362463447_2_alg».proof.Proof.Gen.KernelIdeal.Launch
import proofs.«416192_j3616362463447_2_alg».proof.Proof.Gen.KernelIdeal.Points
import proofs.«416192_j3616362463447_2_alg».proof.Proof.Gen.ReferenceIdeal
import proofs.«416192_j3616362463447_2_alg».proof.Proof.Gen.Pre_finite_inputs
import proofs.«416192_j3616362463447_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
